-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512x128 : Shape := ⟨2, ![512, 128]⟩
abbrev S128 : Shape := ⟨1, ![128]⟩
abbrev S128x256 : Shape := ⟨2, ![128, 256]⟩
abbrev S4096x4096 : Shape := ⟨2, ![4096, 4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S128 .f32) (main_arg5 : FVec F S4096x4096 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S4096x512 .f32) (main_arg1 : FVec F S512x128 .f32) (main_arg2 : FVec F S128 .f32) (main_arg3 : FVec F S128x256 .f32) (main_arg4 : FVec F S128 .f32) (main_arg5 : FVec F S4096x4096 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_v13 main_v16
-- ==== Kernel.lean ====
abbrev S4096x512 : Shape := ⟨2, ![4096, 512]⟩
abbrev S512x128 : Shape := ⟨2, ![512, 128]⟩
abbrev S128 : Shape := ⟨1, ![128]⟩
abbrev S128x256 : Shape := ⟨2, ![128, 256]⟩
abbrev S4096x4096 : Shape := ⟨2, ![4096, 4096]⟩
abbrev S4096x128 : Shape := ⟨2, ![4096, 128]⟩
abbrev S1024x512 : Shape := ⟨2, ![1024, 512]⟩
abbrev S1024x128 : Shape := ⟨2, ![1024, 128]⟩
abbrev S1024x1024 : Shape := ⟨2, ![1024, 1024]⟩
abbrev S128x128 : Shape := ⟨2, ![128, 128]⟩
abbrev S1x128 : Shape := ⟨2, ![1, 128]⟩
abbrev S1x1 : Shape := ⟨2, ![1, 1]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 22
  | .vmem => 40
  | .smem => 0
  | _ => 0

abbrev bufTy : (tb : Table) → Fin (tcTables nBuf tb) → BufTy
  | .hbm, ⟨0, _⟩ => ⟨S4096x512, .f32⟩
  | .hbm, ⟨1, _⟩ => ⟨S512x128, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S4096x4096, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S1x128, .f32⟩
  | .hbm, ⟨16, _⟩ => ⟨S4096x128, .f32⟩
  | .hbm, ⟨17, _⟩ => ⟨S1x128, .f32⟩
  | .hbm, ⟨18, _⟩ => ⟨S4096x128, .f32⟩
  | .hbm, ⟨19, _⟩ => ⟨S4096x128, .f32⟩
  | .hbm, ⟨20, _⟩ => ⟨S1x1, .f32⟩
  | .hbm, ⟨21, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x128, .f32⟩
  | .local _ .vmem, ⟨3, _⟩ => ⟨S1024x128, .f32⟩
  | .local _ .vmem, ⟨4, _⟩ => ⟨S1024x128, .f32⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1024, .f32⟩
  | .local _ .vmem, ⟨13, _⟩ => ⟨S1024x1024, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S1024x128, .f32⟩
  | .local _ .vmem, ⟨27, _⟩ => ⟨S1024x128, .f32⟩
  | .local _ .vmem, ⟨28, _⟩ => ⟨S512x512, .f32⟩
  | .local _ .vmem, ⟨29, _⟩ => ⟨S512x512, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S1x1, .f32⟩
  | .local _ .vmem, ⟨39, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_scratch0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem4_1 : DmaSem sig := 35
abbrev cc4_sem5_0 : DmaSem sig := 36

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![8, 8], ![false, false]⟩

def k4_cond2 (i : grid4.Coords) : BitVec 1 :=
  let arg0 : BitVec 32 := BitVec.ofNat 32 (i 0).val
  let c7_i32 : BitVec 32 := 7#32
  let v47 : BitVec 1 := Scalar.cmpi .eq arg0 c7_i32
  let arg1 : BitVec 32 := BitVec.ofNat 32 (i 1).val
  let c7_i32_23 : BitVec 32 := 7#32
  let v48 : BitVec 1 := Scalar.cmpi .eq arg1 c7_i32_23
  let v49 : BitVec 1 := Scalar.andi v47 v48
  let v50 : BitVec 32 := Scalar.extui v49
  let c0_i32_24 : BitVec 32 := 0#32
  let v51 : BitVec 1 := Scalar.cmpi .ne v50 c0_i32_24
  v51

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S512x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S512x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S512x128_S512x128 : S512x128.ShapeCasts S512x128
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  dot_S1024x512_S512x128_S1024x128_1_0_0_1_n_n_wf : DotDims.WF S1024x512 S512x128 S1024x128 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x128.size a
  hwx1_2 : ∀ i : grid1.Coords, EltTy.bits .f32 = 32 ∨ (Rect.block (s := S4096x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .f32 = 32 ∨ (Rect.block (s := S4096x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S4096x128.size a
  hwx2_1 : ∀ i : grid2.Coords, EltTy.bits .f32 = 32 ∨ (Rect.block (s := S4096x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S4096x128.size a
  hwx2_2 : ∀ i : grid2.Coords, EltTy.bits .f32 = 32 ∨ (Rect.block (s := S4096x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S4096x128.size a
  hwx3_0 : ∀ i : grid3.Coords, EltTy.bits .f32 = 32 ∨ (Rect.block (s := S4096x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S4096x128.size a
  hwx3_1 : ∀ i : grid3.Coords, EltTy.bits .f32 = 32 ∨ (Rect.block (s := S4096x128) S1024x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x128.size a ≤ S4096x128.size a
  hwx3_5 : ∀ i : grid3.Coords, EltTy.bits .f32 = 32 ∨ (Rect.block (s := S4096x128) S1024x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S4096x4096.size a
  hwx4_0 : ∀ i : grid4.Coords, EltTy.bits .f32 = 32 ∨ (Rect.block (s := S4096x4096) S512x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S4096x128.size a
  hwx4_1 : ∀ i : grid4.Coords, EltTy.bits .f32 = 32 ∨ (Rect.block (s := S4096x128) S512x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x128.size a ≤ S4096x128.size a
  hwx4_2 : ∀ i : grid4.Coords, EltTy.bits .f32 = 32 ∨ (Rect.block (s := S4096x128) S512x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x128.size a ≤ S4096x128.size a
  hwx4_3 : ∀ i : grid4.Coords, EltTy.bits .f32 = 32 ∨ (Rect.block (s := S4096x128) S512x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x128.size a ≤ S4096x128.size a
  hwx4_4 : ∀ i : grid4.Coords, EltTy.bits .f32 = 32 ∨ (Rect.block (s := S4096x128) S512x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg5) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v2) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v9) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v10) S1024x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg5) S512x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v2) S512x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S512x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v4) S512x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v4) S512x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v14) S1x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

class Facts : Prop extends Facts₀ where

variable [Facts]
-- ==== ReferenceIdeal.lean ====
abbrev S4096x512 : Shape := ⟨2, ![4096, 512]⟩
abbrev S512x128 : Shape := ⟨2, ![512, 128]⟩
abbrev S128 : Shape := ⟨1, ![128]⟩
abbrev S128x256 : Shape := ⟨2, ![128, 256]⟩
abbrev S4096x4096 : Shape := ⟨2, ![4096, 4096]⟩
abbrev S4096 : Shape := ⟨1, ![4096]⟩
abbrev S4096x128 : Shape := ⟨2, ![4096, 128]⟩
abbrev S_ : Shape := ⟨0, ![]⟩
abbrev S4096x1 : Shape := ⟨2, ![4096, 1]⟩
abbrev S4096x2 : Shape := ⟨2, ![4096, 2]⟩
abbrev S4096x256 : Shape := ⟨2, ![4096, 256]⟩
abbrev S256x128 : Shape := ⟨2, ![256, 128]⟩
abbrev S1x128 : Shape := ⟨2, ![1, 128]⟩
abbrev S128x4096 : Shape := ⟨2, ![128, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x128, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S4096x4096, .f32⟩
  | .hbm, ⟨6, _⟩ => ⟨S4096, .i32⟩
  | .hbm, ⟨7, _⟩ => ⟨S4096x128, .f32⟩
  | .hbm, ⟨8, _⟩ => ⟨S_, .f32⟩
  | .hbm, ⟨9, _⟩ => ⟨S4096x128, .f32⟩
  | .hbm, ⟨10, _⟩ => ⟨S4096x128, .f32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096x1, .i32⟩
  | .hbm, ⟨27, _⟩ => ⟨S4096x2, .i32⟩
  | .hbm, ⟨28, _⟩ => ⟨S_, .f32⟩
  | .hbm, ⟨29, _⟩ => ⟨S4096, .f32⟩
  | .hbm, ⟨30, _⟩ => ⟨S4096x4096, .f32⟩
  | .hbm, ⟨31, _⟩ => ⟨S4096x128, .f32⟩
  | .hbm, ⟨32, _⟩ => ⟨S4096x4096, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4096x1, .i32⟩
  | .hbm, ⟨49, _⟩ => ⟨S4096x2, .i32⟩
  | .hbm, ⟨50, _⟩ => ⟨S_, .f32⟩
  | .hbm, ⟨51, _⟩ => ⟨S4096, .f32⟩
  | .hbm, ⟨52, _⟩ => ⟨S4096x4096, .f32⟩
  | .hbm, ⟨53, _⟩ => ⟨S4096x128, .f32⟩
  | .hbm, ⟨54, _⟩ => ⟨S4096x256, .f32⟩
  | .hbm, ⟨55, _⟩ => ⟨S256x128, .f32⟩
  | .hbm, ⟨56, _⟩ => ⟨S4096x128, .f32⟩
  | .hbm, ⟨57, _⟩ => ⟨S1x128, .f32⟩
  | .hbm, ⟨58, _⟩ => ⟨S4096x128, .f32⟩
  | .hbm, ⟨59, _⟩ => ⟨S4096x128, .f32⟩
  | .hbm, ⟨60, _⟩ => ⟨S128x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S128x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096x4096, .f32⟩
  | .hbm, ⟨79, _⟩ => ⟨S4096x4096, .f32⟩
  | .hbm, ⟨80, _⟩ => ⟨S4096x4096, .f32⟩
  | .hbm, ⟨81, _⟩ => ⟨S_, .f32⟩
  | .hbm, ⟨82, _⟩ => ⟨S4096x4096, .f32⟩
  | .hbm, ⟨83, _⟩ => ⟨S4096x4096, .f32⟩
  | .hbm, ⟨84, _⟩ => ⟨S4096x4096, .f32⟩
  | .hbm, ⟨85, _⟩ => ⟨S_, .f32⟩
  | .hbm, ⟨86, _⟩ => ⟨S4096x4096, .f32⟩
  | .hbm, ⟨87, _⟩ => ⟨S4096x4096, .f32⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S4096x4096, .f32⟩
  | .hbm, ⟨92, _⟩ => ⟨S4096x4096, .f32⟩
  | .hbm, ⟨93, _⟩ => ⟨S4096x4096, .f32⟩
  | .hbm, ⟨94, _⟩ => ⟨S_, .f32⟩
  | .hbm, ⟨95, _⟩ => ⟨S4096x4096, .f32⟩
  | .hbm, ⟨96, _⟩ => ⟨S4096x4096, .f32⟩
  | .hbm, ⟨97, _⟩ => ⟨S4096x4096, .f32⟩
  | .hbm, ⟨98, _⟩ => ⟨S4096x4096, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S1x128, .f32⟩
  | .hbm, ⟨105, _⟩ => ⟨S4096x128, .f32⟩
  | .hbm, ⟨106, _⟩ => ⟨S4096x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_cst_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096x128_S4096x128_S4096x256_d1 : Shape.Concatenates [S4096x128, S4096x128] S4096x256 1
  transposes_S128x256_S256x128_1_0 : S128x256.Transposes [1, 0] S256x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  transposes_S4096x128_S128x4096_1_0 : S4096x128.Transposes [1, 0] S128x4096
  bcast_S_S4096x4096 : S_.BroadcastsInDim S4096x4096 (![] : Fin 0 → Fin S4096x4096.rank)
  reducesTo_S4096x4096_S_d0_1 : S4096x4096.ReducesTo [0, 1] S_
  h_S_ : 0 < S_.numel
  dot_S4096x512_S512x128_S4096x128_1_0_0_1_n_n_wf : DotDims.WF S4096x512 S512x128 S4096x128 [1] [0] [0] [1] [] []
  scatter_S4096x4096_S4096x2_S4096_n_01_01_1_wf : ScatterDims.WF S4096x4096 S4096x2 S4096 [] [0, 1] [0, 1] 1
  dot_S4096x4096_S4096x128_S4096x128_1_0_0_1_n_n_wf : DotDims.WF S4096x4096 S4096x128 S4096x128 [1] [0] [0] [1] [] []
  dot_S4096x4096_S4096x4096_S4096x4096_1_0_0_1_n_n_wf : DotDims.WF S4096x4096 S4096x4096 S4096x4096 [1] [0] [0] [1] [] []
  dot_S4096x256_S256x128_S4096x128_1_0_0_1_n_n_wf : DotDims.WF S4096x256 S256x128 S4096x128 [1] [0] [0] [1] [] []
  dot_S4096x128_S128x4096_S4096x4096_1_0_0_1_n_n_wf : DotDims.WF S4096x128 S128x4096 S4096x4096 [1] [0] [0] [1] [] []

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.KReg0Defs.lean ====
import proofs.«145575_j57698590654941_1_alg».proof.Proof.Gen.Kernel.Launch
import proofs.«145575_j57698590654941_1_alg».proof.Proof.Gen.Kernel.Skeleton
import proofs.«145575_j57698590654941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.SL.RA
open Idealize.ShloMosaic.Pipeline (Dat)
open Cert.Kernel Cert.Kernel.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

end Cert.Kernel.Hand

end
-- ==== Proof.KReg1Defs.lean ====
import proofs.«145575_j57698590654941_1_alg».proof.Proof.Gen.Kernel.Launch
import proofs.«145575_j57698590654941_1_alg».proof.Proof.Gen.Kernel.Skeleton
import proofs.«145575_j57698590654941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open scoped Idealize.SL.BI
open Idealize.SL.BI.BIBase
open Idealize.ShloMosaic.Pipeline (Dat)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accAt1 (c : Dev nD) : (n : ℕ) → n < cfg1.N → Vec F S1024x128 .f32
  | 0, h => k1_pay2 (iblk1 V c 0 ⟨0, h⟩) (iblk1 V c 1 ⟨0, h⟩) (k1_pay1 (F := F))
  | n + 1, h =>
    if (n + 1) % 4 = 0 then k1_pay2 (iblk1 V c 0 ⟨n + 1, h⟩) (iblk1 V c 1 ⟨n + 1, h⟩) (k1_pay1 (F := F))
    else k1_pay2 (iblk1 V c 0 ⟨n + 1, h⟩) (iblk1 V c 1 ⟨n + 1, h⟩) (accAt1 c n (Nat.lt_of_succ_lt h))

abbrev scM1 : Memref sig .tc .vmem S1024x128 .f32 := Memref.whole cc1_scratch0

def PhiS1 (c : Dev nD) : (n : ℕ) → n ≤ cfg1.N → sProp 𝕄
  | 0, _ => Pipeline.ΦA spec1 c
  | n + 1, hn => iprop(owns (c : Thread nD τ) scM1 fullShare (accAt1 V c n hn)
      ∗ Pipeline.scopedRestBut (Ix := Unit) (Name := ℕ) (U := UR sig nD τ) (Lvl := ℕ) (Val := Elt F) spec1 c [cc1_scratch0]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

end Cert.Kernel.Hand

end
-- ==== Proof.KReg2Defs.lean ====
import proofs.«145575_j57698590654941_1_alg».proof.Proof.Gen.Kernel.Launch
import proofs.«145575_j57698590654941_1_alg».proof.Proof.Gen.Kernel.Skeleton
import proofs.«145575_j57698590654941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open scoped Idealize.SL.BI
open Idealize.SL.BI.BIBase
open Idealize.ShloMosaic.Pipeline (Dat)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def accAt2 (c : Dev nD) : (n : ℕ) → n < cfg2.N → Vec F S1024x128 .f32
  | 0, h => k2_pay2 (iblk2 V c 0 ⟨0, h⟩) (iblk2 V c 1 ⟨0, h⟩) (k2_pay1 (F := F))
  | n + 1, h =>
    if (n + 1) % 4 = 0 then k2_pay2 (iblk2 V c 0 ⟨n + 1, h⟩) (iblk2 V c 1 ⟨n + 1, h⟩) (k2_pay1 (F := F))
    else k2_pay2 (iblk2 V c 0 ⟨n + 1, h⟩) (iblk2 V c 1 ⟨n + 1, h⟩) (accAt2 c n (Nat.lt_of_succ_lt h))

abbrev scM2 : Memref sig .tc .vmem S1024x128 .f32 := Memref.whole cc2_scratch0

def PhiS2 (c : Dev nD) : (n : ℕ) → n ≤ cfg2.N → sProp 𝕄
  | 0, _ => Pipeline.ΦA spec2 c
  | n + 1, hn => iprop(owns (c : Thread nD τ) scM2 fullShare (accAt2 V c n hn)
      ∗ Pipeline.scopedRestBut (Ix := Unit) (Name := ℕ) (U := UR sig nD τ) (Lvl := ℕ) (Val := Elt F) spec2 c [cc2_scratch0]
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

end Cert.Kernel.Hand

end
-- ==== Proof.KReg3Defs.lean ====
import proofs.«145575_j57698590654941_1_alg».proof.Proof.Gen.Kernel.Launch
import proofs.«145575_j57698590654941_1_alg».proof.Proof.Gen.Kernel.Skeleton
import proofs.«145575_j57698590654941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.SL.RA
open Idealize.ShloMosaic.Pipeline (Dat)
open Cert.Kernel Cert.Kernel.Gen

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay1 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

end Cert.Kernel.Hand

end
-- ==== Proof.KReg4Defs.lean ====
import proofs.«145575_j57698590654941_1_alg».proof.Proof.Gen.Kernel.Launch
import proofs.«145575_j57698590654941_1_alg».proof.Proof.Gen.Kernel.Skeleton
import proofs.«145575_j57698590654941_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI Idealize.SL.BI.BIBase
open scoped Idealize.SL.BI
open Idealize.ShloMosaic.Pipeline (Dat)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def tile4 (c : Dev nD) (t : Fin cfg4.N) (prev : Vec F S1x1 .f32) : Vec F S1x1 .f32 :=
  k4_pay1 (k4_pay5 (iblk4 V c 1 t) (iblk4 V c 2 t) (iblk4 V c 3 t) (iblk4 V c 4 t) (iblk4 V c 0 t))
    (k4_pay6 (iblk4 V c 1 t) (iblk4 V c 2 t) (iblk4 V c 3 t) (iblk4 V c 4 t) (iblk4 V c 0 t)) prev

def accAt4 (c : Dev nD) : (n : ℕ) → n < cfg4.N → Vec F S1x1 .f32
  | 0, h => tile4 V c ⟨0, h⟩ (k4_pay3 (F := F))
  | n + 1, h => tile4 V c ⟨n + 1, h⟩ (accAt4 c n (Nat.lt_of_succ_lt h))

abbrev scM4 : Memref sig .tc .vmem S1x1 .f32 := Memref.whole cc4_scratch0

def PhiS4 (c : Dev nD) : (n : ℕ) → n ≤ cfg4.N → sProp 𝕄
  | 0, _ => Pipeline.ΦA spec4 c
  | n + 1, hn => iprop(owns (c : Thread nD τ) scM4 fullShare (accAt4 V c n hn)
      ∗ Pipeline.scopedRestBut (Ix := Unit) (Name := ℕ) (U := UR sig nD τ) (Lvl := ℕ) (Val := Elt F) spec4 c [cc4_scratch0]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => k4_pay2 (accAt4 V c t.val t.isLt)
  Φ t := PhiS4 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

theorem A_eq4 (c : Dev nD) (w : Fin cfg4.W) : (dat4 V c).A w = V c (Pipeline.arrRef spec4 w) := by
  dsimp only [dat4]

end Cert.Kernel.Hand

end
-- ==== Proof.KChain.lean ====
import proofs.«145575_j57698590654941_1_alg».proof.Proof.KReg0Defs
import proofs.«145575_j57698590654941_1_alg».proof.Proof.KReg1Defs
import proofs.«145575_j57698590654941_1_alg».proof.Proof.KReg2Defs
import proofs.«145575_j57698590654941_1_alg».proof.Proof.KReg3Defs
import proofs.«145575_j57698590654941_1_alg».proof.Proof.KReg4Defs
import Idealize.ShloMosaic.Lib.Pipeline.Regions

noncomputable section

namespace Cert.Kernel.Hand

open Idealize.ShloMosaic Idealize.ShloMosaic.TcCoe
open Idealize.SL Idealize.SL.BI
open scoped Idealize.SL.BI
open Idealize.SL.BI.BIBase
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev Vr (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)
def W1 (c : Dev nD) : Valuation τ sig (Elt F) :=
  Function.update (W0 m c) (Proc.devRef .tc main_v0) ((dat0 (Vr (W0 m)) c).arrAt 2 cfg0.N)
def W2 (c : Dev nD) : Valuation τ sig (Elt F) :=
  Function.update (W1 m c) (Proc.devRef .tc main_v1) ((dat1 (Vr (W1 m)) c).arrAt 2 cfg1.N)
abbrev W3 : Dev nD → Valuation τ sig (Elt F) := fun c => StableHlo.after hostOps2 (W2 m c)
def W4 (c : Dev nD) : Valuation τ sig (Elt F) :=
  Function.update (W3 m c) (Proc.devRef .tc main_v3) ((dat2 (Vr (W3 m)) c).arrAt 2 cfg2.N)
abbrev W5 : Dev nD → Valuation τ sig (Elt F) := fun c => StableHlo.after hostOps3 (W4 m c)
def W6 (c : Dev nD) : Valuation τ sig (Elt F) :=
  Function.update (W5 m c) (Proc.devRef .tc main_v10) ((dat3 (Vr (W5 m)) c).arrAt 5 cfg3.N)
abbrev W7 : Dev nD → Valuation τ sig (Elt F) := fun c => StableHlo.after hostOps4 (W6 m c)
def W8 (c : Dev nD) : Valuation τ sig (Elt F) :=
  Function.update (W7 m c) (Proc.devRef .tc main_v14) ((dat4 (Vr (W7 m)) c).arrAt 5 cfg4.N)
abbrev W9 : Dev nD → Valuation τ sig (Elt F) := fun c => StableHlo.after hostOps5 (W8 m c)

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (Vr (W0 m)) c
  | ⟨1, _⟩ => fun c => dat1 (Vr (W1 m)) c
  | ⟨2, _⟩ => fun c => dat2 (Vr (W3 m)) c
  | ⟨3, _⟩ => fun c => dat3 (Vr (W5 m)) c
  | ⟨4, _⟩ => fun c => dat4 (Vr (W7 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

end Cert.Kernel.Hand

end
-- ==== Proof.LibStore.lean ====
import Idealize.ShloMosaic.Lib.Pipeline.Value

namespace Cert.LibStore

open Idealize.ShloMosaic Idealize.SL Idealize.SL.BI Idealize.SL.RA
open scoped Idealize.SL.BI
open Idealize.SL.BI.BIBase Idealize.SL.ProofMode

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

-- Contents that read X through the memref are owned at X.
theorem reown (c : Thread nD τ) {sp : Space} {s : Shape} {e : EltTy} {m : Memref sig c.2.kind sp s e} {q : PosShare TreeShare}
    {f : m.view.ty.Contents Val} {X : s.Idx → Val e} (h : m.view.read Val f = X) :
    (m.view.loc c ↦[m.view.set]{q} f : sProp 𝕄) ⊢ iprop(∃ g, ⌜m.view.read Val g = X⌝ ∗ (m.view.loc c ↦[m.view.set]{q} g)) := by
  iintro H; iexists f; isplitr
  · ipureintro; exact h
  iexact H

variable [∀ e, Nonempty (Val e)] {κ : Kind} {sp : Space} {S : Shape} {e : EltTy}
variable {off : Fin S.rank → ℕ} (h : off = fun _ => 0) (inb : ∀ a, off a + S.size a ≤ S.size a)
variable (w : S.Idx → Val e) (L : List (View.Piece Val S e))
include h

-- The unit rectangle at zero offsets holds every index of the block.
theorem cover (y : S.Idx) : ∃ pc ∈ ((⟨Rect.unit off S.size inb, w⟩ : View.Piece Val S e) :: L), y ∈ pc.1.set :=
  ⟨_, List.mem_cons_self, View.mem_set_unit_zero h inb y⟩

-- The last store through the whole block decides what a later load of the block reads.
theorem readCov (v : View sig κ sp S e) :
    v.readCov (⟨Rect.unit off S.size inb, w⟩ :: L) (Rect.unit off S.size inb).toLoadRect = w :=
  (View.readCov_eq_canon_ld v _ _ (cover h inb w L)).trans
    ((View.ld_unit_zero h inb _).trans (View.canon_cons_unit_zero h inb w L))

variable {inb w L}

-- The last store through the whole block decides what the block holds afterwards.
theorem stored {v : View sig κ sp S e} {f : v.ty.Contents Val} :
    v.read Val (v.writes Val f (⟨Rect.unit off S.size inb, w⟩ :: L)) = w :=
  (View.read_writes_eq_canon v f _ (cover h inb w L)).trans (View.canon_cons_unit_zero h inb w L)

end Cert.LibStore
-- ==== Proof.KReg0Body.lean ====
import proofs.«145575_j57698590654941_1_alg».proof.Proof.KReg0Defs
import proofs.«145575_j57698590654941_1_alg».proof.Proof.LibStore
import Idealize.ShloMosaic.Lib.Pipeline.Value
import Idealize.ShloMosaic.Lib.QrPanel.Panel

noncomputable section

namespace Cert.Kernel.Hand

open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

-- The body only reads its inputs: what it finds in an input window is the block it leaves there.
theorem held0 {c : Dev nD} {t : Fin cfg0.N} (w : Fin cfg0.W) (hw : (cfg0.win w).isOut = false) (d) :
    (dat0 V c).before w t d = (dat0 V c).after w t := by
  fin_cases w
  iterate 2
    exact ((dat0 V c).before_in_eq_fetched _ hw (fun _ => rfl) (fun _ _ _ => rfl)
      (fun _ => by dsimp only [dat0]; rfl) t d).trans (by dsimp only [dat0]; rfl)
  cases hw

-- The one store covers the whole output block, so the block reads back as the payload of the input blocks.
theorem body_obligation0 (c : Dev nD) : BodyObligation (dat0 (F := F) V c) (defs₀ (F := F)) Variants.none () Set.univ := fun t => by
  rw [bigSep_W0, bigSep_W0]
  simp only [held0 V 0 rfl, held0 V 1 rfl]
  dsimp only [dat0, Dat.owesAt, Dat.bound]
  show _ ⊢ wp _ _ _ (bodyAt0 t) _
  unfold bodyAt0 owns
  rw [cc0__support_kernel_eq_skeleton]; unfold cc0__support_kernel_skel
  iintro ⟨HΦ, Ho, ⟨%_, %f0, %hf0, H0⟩, ⟨%_, %f1, %hf1, H1⟩, ⟨%_, %f2, -, H2⟩⟩
  sl_exec
  sl_step
  iframe
  isplitl [H0]; · iexists f0; iframe %hf0 H0
  isplitl [H1]; · iexists f1; iframe %hf1 H1
  iexists _; iframe
  ipureintro
  rw [LibStore.stored QrPanel.Panel.zeros2, ← hf0, ← hf1]
  congr 1 <;> exact View.ld_unit_zero QrPanel.Panel.zeros2 _ _

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

end Cert.Kernel.Hand

end
-- ==== Proof.KReg1Body.lean ====
import proofs.«145575_j57698590654941_1_alg».proof.Proof.KReg1Defs
import proofs.«145575_j57698590654941_1_alg».proof.Proof.LibStore
import Idealize.ShloMosaic.Lib.QrPanel.Panel

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Idealize.ShloMosaic.QrPanel.Panel (zeros2)
open Cert.Kernel Cert.Kernel.Gen Cert.LibStore

variable {F : FTy → Type} [FloatOps F]

local notation "𝕄" => MT nD τ sig Unit (Elt F) ℕ (UR sig nD τ) ℕ

variable (V : (c : Dev nD) → (b : Ref sig .tc) → Buf (Elt F) (c.tc.loc b))

abbrev condReset1 (i : grid1.Coords) : Prop :=
  (Scalar.cmpi .ne (Scalar.extui (Scalar.cmpi .eq (BitVec.ofNat 32 (i 1).val) 0#32)) 0#32) = 1#1

theorem hcondReset1 : ∀ t : Fin cfg1.N, condReset1 (grid1.coords t) ↔ t.val % 4 = 0 := by decide +kernel

abbrev condFlush1 (i : grid1.Coords) : Prop := k1_cond2 i = 1#1

theorem run1 (c : Dev nD) (i : grid1.Coords)
    (arg2 : Memref sig .tc .vmem S1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (x0 : Vec F S1024x1024 .f32) (x1 o p : Vec F S1024x128 .f32) (E : Set ℕ) (K : PUnit → sProp 𝕄) :
    iprop(owns c.tc arg2 fullShare x0 ∗ owns c.tc arg3 fullShare x1
        ∗ owns c.tc arg4 fullShare o ∗ owns c.tc arg5 fullShare p
        ∗ (iprop(owns c.tc arg2 fullShare x0 ∗ owns c.tc arg3 fullShare x1
            ∗ owns c.tc arg4 fullShare
                (if condFlush1 i then k1_pay2 x0 x1 (if condReset1 i then k1_pay1 else p) else o)
            ∗ owns c.tc arg5 fullShare (k1_pay2 x0 x1 (if condReset1 i then k1_pay1 else p))) -∗ K ⟨⟩))
      ⊢ wp frame (wpE defs₀ Variants.none c none) E
          (cc1__adjmatvec_kernel i arg2 harg2 arg3 harg3 arg4 harg4 arg5 harg5) K := by
  simp only [cc1__adjmatvec_kernel_eq_skeleton]; unfold cc1__adjmatvec_kernel_skel
  unfold owns
  iintro ⟨⟨%f0, %h0, H0⟩, ⟨%f1, %h1, H1⟩, ⟨%fo, %ho, HO⟩, ⟨%fs, %hs, HS⟩, Hk⟩
  subst h0 h1 ho hs
  by_cases hc0 : condReset1 i <;> by_cases hc1 : condFlush1 i
  all_goals
    first | rw [if_pos hc0] | rw [if_neg hc0]
    first | rw [if_pos hc1] | rw [if_neg hc1]
    sl_exec (disch := first | exact hc0 | exact hc1)
    sl_step
    iapply Hk
    sl_unfold_words
    simp only [View.readAt_eq_ld, View.ld_unit_zero (S := S1024x1024) zeros2, View.ld_unit_zero (S := S1024x128) zeros2]
    repeat rw [readCov zeros2]
    isplitl [H0]; · iapply (reown c.tc rfl) $$ H0
    isplitl [H1]; · iapply (reown c.tc rfl) $$ H1
    isplitl [HO]; · first | iapply (reown c.tc (stored zeros2)) $$ HO | iapply (reown c.tc rfl) $$ HO
    iapply (reown c.tc (stored zeros2)) $$ HS

theorem PhiA1_eq (c : Dev nD) :
    (Pipeline.ΦA spec1 c : sProp 𝕄)
      = iprop(iprop(iprop(∃ d, owns c.tc scM1 fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1, owns_whole]; rfl

-- At every position the invariant lends the accumulator at what the point's value continues from.
theorem PhiOpen1 (c : Dev nD) (t : Fin cfg1.N) :
    (dat1 V c).Φ t.castSucc ⊢ ∃ p,
      ⌜accAt1 V c t.val t.isLt = k1_pay2 ((dat1 V c).after 0 t) ((dat1 V c).after 1 t)
        (if condReset1 (grid1.coords t) then k1_pay1 else p)⌝
      ∗ owns c.tc scM1 fullShare p
      ∗ (owns c.tc scM1 fullShare (accAt1 V c t.val t.isLt) -∗ (dat1 V c).Φ t.succ) := by
  obtain ⟨n, hn⟩ := t
  cases n with
  | zero =>
    show Pipeline.ΦA spec1 c ⊢ ∃ p, _ ∗ _ ∗ (_ -∗ iprop(_ ∗ _ ∗ _))
    rw [PhiA1_eq]
    iintro ⟨⟨⟨%p, HS⟩, HR⟩, Hg⟩
    iexists p
    isplitr
    · ipureintro; exact (congrArg (k1_pay2 _ _) (if_pos ((hcondReset1 ⟨0, hn⟩).mpr rfl))).symm
    iframe HS
    iintro HS
    iframe
  | succ n =>
    show iprop(_ ∗ _) ⊢ ∃ p, _ ∗ _ ∗ (_ -∗ iprop(_ ∗ _))
    iintro ⟨HS, HR⟩
    iexists accAt1 V c n (Nat.lt_of_succ_lt hn)
    isplitr
    · ipureintro
      exact (if_congr (hcondReset1 ⟨n + 1, hn⟩).symm rfl rfl).trans (apply_ite (k1_pay2 _ _) _ _ _).symm
    iframe HS
    iintro HS
    iframe

theorem beforeA1 (c : Dev nD) (t : Fin cfg1.N) (d) : (dat1 V c).before 0 t d = (dat1 V c).after 0 t :=
  ((dat1 V c).before_fetched 0 t (fetch1_0 t) d).trans rfl
theorem beforeB1 (c : Dev nD) (t : Fin cfg1.N) (d) : (dat1 V c).before 1 t d = (dat1 V c).after 1 t :=
  ((dat1 V c).before_fetched 1 t (fetch1_1 t) d).trans rfl

theorem liveA1 : ∀ t : Fin cfg1.N, cfg1.idle 0 (grid1.coords t) = false := by decide +kernel
theorem liveB1 : ∀ t : Fin cfg1.N, cfg1.idle 1 (grid1.coords t) = false := by decide +kernel
theorem liveO1 : ∀ t : Fin cfg1.N, condFlush1 (grid1.coords t) → cfg1.idle 2 (grid1.coords t) = false := by
  decide +kernel
theorem idleO1 : ∀ t : Fin cfg1.N, ¬condFlush1 (grid1.coords t) →
    cfg1.idle 2 (grid1.coords t) = true ∧ (cfg1.win 2).flush t = false := by decide +kernel

theorem leavesO1 (c : Dev nD) (t : Fin cfg1.N) (d) :
    owns c.tc (st1_2 t) fullShare
        (if condFlush1 (grid1.coords t) then accAt1 V c t.val t.isLt else (dat1 V c).before 2 t d)
      ⊢ (dat1 V c).leavesExact 2 t := by
  unfold Dat.leavesExact
  by_cases h : condFlush1 (grid1.coords t)
  · rw [if_pos h, liveO1 t h]; exact .rfl
  · rw [if_neg h, (idleO1 t h).1, (idleO1 t h).2]; iintro H; iexists d; iexact H

theorem body_obligation1 (c : Dev nD) : BodyObligation (dat1 (F := F) V c) (defs₀ (F := F)) Variants.none () Set.univ := fun t => by
  rw [bigSep_W1, bigSep_W1]
  show _ ⊢ wp frame _ Set.univ (bodyAt1 t) _
  simp only [beforeA1, beforeB1, liveA1 t, liveB1 t]
  iintro ⟨HΦ, Ho, ⟨%d0, H0⟩, ⟨%d1, H1⟩, ⟨%d2, H2⟩⟩
  icases (PhiOpen1 V c t) $$ HΦ with ⟨%p, %hp, HS, HΦ⟩
  iapply (run1 c (grid1.coords t) _ _ _ _ _ _ _ _ ((dat1 V c).after 0 t) ((dat1 V c).after 1 t) _ p Set.univ _)
  iframe H0 H1 H2 HS
  iintro ⟨H0, H1, H2, HS⟩
  rw [← hp]
  isplitl [HS HΦ]; · iapply HΦ $$ HS
  isplitl [Ho]; · iexact Ho
  iframe H0 H1
  iapply (leavesO1 V c t d2) $$ H2

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq]
  show iprop(_ ∗ _ ∗ _) ⊢ _
  iintro ⟨HS, HR, Hg⟩
  iframe HR Hg
  iexists _; iexact HS

end Cert.Kernel.Hand

end
-- ==== Proof.KReg2Body.lean ====
import proofs.«145575_j57698590654941_1_alg».proof.Proof.KReg2Defs
import proofs.«145575_j57698590654941_1_alg».proof.Proof.LibStore
import Idealize.ShloMosaic.Lib.QrPanel.Panel

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Idealize.ShloMosaic.QrPanel.Panel (zeros2)
open Cert.Kernel Cert.Kernel.Gen Cert.LibStore

variable {F : FTy → Type} [FloatOps F]

local notation "𝕄" => MT nD τ sig Unit (Elt F) ℕ (UR sig nD τ) ℕ

variable (V : (c : Dev nD) → (b : Ref sig .tc) → Buf (Elt F) (c.tc.loc b))

abbrev condReset2 (i : grid2.Coords) : Prop :=
  (Scalar.cmpi .ne (Scalar.extui (Scalar.cmpi .eq (BitVec.ofNat 32 (i 1).val) 0#32)) 0#32) = 1#1

theorem hcondReset2 : ∀ t : Fin cfg2.N, condReset2 (grid2.coords t) ↔ t.val % 4 = 0 := by decide +kernel

abbrev condFlush2 (i : grid2.Coords) : Prop := k2_cond2 i = 1#1

theorem run2 (c : Dev nD) (i : grid2.Coords)
    (arg2 : Memref sig .tc .vmem S1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (x0 : Vec F S1024x1024 .f32) (x1 o p : Vec F S1024x128 .f32) (E : Set ℕ) (K : PUnit → sProp 𝕄) :
    iprop(owns c.tc arg2 fullShare x0 ∗ owns c.tc arg3 fullShare x1
        ∗ owns c.tc arg4 fullShare o ∗ owns c.tc arg5 fullShare p
        ∗ (iprop(owns c.tc arg2 fullShare x0 ∗ owns c.tc arg3 fullShare x1
            ∗ owns c.tc arg4 fullShare
                (if condFlush2 i then k2_pay2 x0 x1 (if condReset2 i then k2_pay1 else p) else o)
            ∗ owns c.tc arg5 fullShare (k2_pay2 x0 x1 (if condReset2 i then k2_pay1 else p))) -∗ K ⟨⟩))
      ⊢ wp frame (wpE defs₀ Variants.none c none) E
          (cc2__adjmatvec_kernel i arg2 harg2 arg3 harg3 arg4 harg4 arg5 harg5) K := by
  simp only [cc2__adjmatvec_kernel_eq_skeleton]; unfold cc2__adjmatvec_kernel_skel
  unfold owns
  iintro ⟨⟨%f0, %h0, H0⟩, ⟨%f1, %h1, H1⟩, ⟨%fo, %ho, HO⟩, ⟨%fs, %hs, HS⟩, Hk⟩
  subst h0 h1 ho hs
  by_cases hc0 : condReset2 i <;> by_cases hc1 : condFlush2 i
  all_goals
    first | rw [if_pos hc0] | rw [if_neg hc0]
    first | rw [if_pos hc1] | rw [if_neg hc1]
    sl_exec (disch := first | exact hc0 | exact hc1)
    sl_step
    iapply Hk
    sl_unfold_words
    simp only [View.readAt_eq_ld, View.ld_unit_zero (S := S1024x1024) zeros2, View.ld_unit_zero (S := S1024x128) zeros2]
    repeat rw [readCov zeros2]
    isplitl [H0]; · iapply (reown c.tc rfl) $$ H0
    isplitl [H1]; · iapply (reown c.tc rfl) $$ H1
    isplitl [HO]; · first | iapply (reown c.tc (stored zeros2)) $$ HO | iapply (reown c.tc rfl) $$ HO
    iapply (reown c.tc (stored zeros2)) $$ HS

theorem PhiA2_eq (c : Dev nD) :
    (Pipeline.ΦA spec2 c : sProp 𝕄)
      = iprop(iprop(iprop(∃ d, owns c.tc scM2 fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; rfl

-- At every position the invariant lends the accumulator at what the point's value continues from.
theorem PhiOpen2 (c : Dev nD) (t : Fin cfg2.N) :
    (dat2 V c).Φ t.castSucc ⊢ ∃ p,
      ⌜accAt2 V c t.val t.isLt = k2_pay2 ((dat2 V c).after 0 t) ((dat2 V c).after 1 t)
        (if condReset2 (grid2.coords t) then k2_pay1 else p)⌝
      ∗ owns c.tc scM2 fullShare p
      ∗ (owns c.tc scM2 fullShare (accAt2 V c t.val t.isLt) -∗ (dat2 V c).Φ t.succ) := by
  obtain ⟨n, hn⟩ := t
  cases n with
  | zero =>
    show Pipeline.ΦA spec2 c ⊢ ∃ p, _ ∗ _ ∗ (_ -∗ iprop(_ ∗ _ ∗ _))
    rw [PhiA2_eq]
    iintro ⟨⟨⟨%p, HS⟩, HR⟩, Hg⟩
    iexists p
    isplitr
    · ipureintro; exact (congrArg (k2_pay2 _ _) (if_pos ((hcondReset2 ⟨0, hn⟩).mpr rfl))).symm
    iframe HS
    iintro HS
    iframe
  | succ n =>
    show iprop(_ ∗ _) ⊢ ∃ p, _ ∗ _ ∗ (_ -∗ iprop(_ ∗ _))
    iintro ⟨HS, HR⟩
    iexists accAt2 V c n (Nat.lt_of_succ_lt hn)
    isplitr
    · ipureintro
      exact (if_congr (hcondReset2 ⟨n + 1, hn⟩).symm rfl rfl).trans (apply_ite (k2_pay2 _ _) _ _ _).symm
    iframe HS
    iintro HS
    iframe

theorem beforeA2 (c : Dev nD) (t : Fin cfg2.N) (d) : (dat2 V c).before 0 t d = (dat2 V c).after 0 t :=
  ((dat2 V c).before_fetched 0 t (fetch2_0 t) d).trans rfl
theorem beforeB2 (c : Dev nD) (t : Fin cfg2.N) (d) : (dat2 V c).before 1 t d = (dat2 V c).after 1 t :=
  ((dat2 V c).before_fetched 1 t (fetch2_1 t) d).trans rfl

theorem liveA2 : ∀ t : Fin cfg2.N, cfg2.idle 0 (grid2.coords t) = false := by decide +kernel
theorem liveB2 : ∀ t : Fin cfg2.N, cfg2.idle 1 (grid2.coords t) = false := by decide +kernel
theorem liveO2 : ∀ t : Fin cfg2.N, condFlush2 (grid2.coords t) → cfg2.idle 2 (grid2.coords t) = false := by
  decide +kernel
theorem idleO2 : ∀ t : Fin cfg2.N, ¬condFlush2 (grid2.coords t) →
    cfg2.idle 2 (grid2.coords t) = true ∧ (cfg2.win 2).flush t = false := by decide +kernel

theorem leavesO2 (c : Dev nD) (t : Fin cfg2.N) (d) :
    owns c.tc (st2_2 t) fullShare
        (if condFlush2 (grid2.coords t) then accAt2 V c t.val t.isLt else (dat2 V c).before 2 t d)
      ⊢ (dat2 V c).leavesExact 2 t := by
  unfold Dat.leavesExact
  by_cases h : condFlush2 (grid2.coords t)
  · rw [if_pos h, liveO2 t h]; exact .rfl
  · rw [if_neg h, (idleO2 t h).1, (idleO2 t h).2]; iintro H; iexists d; iexact H

theorem body_obligation2 (c : Dev nD) : BodyObligation (dat2 (F := F) V c) (defs₀ (F := F)) Variants.none () Set.univ := fun t => by
  rw [bigSep_W2, bigSep_W2]
  show _ ⊢ wp frame _ Set.univ (bodyAt2 t) _
  simp only [beforeA2, beforeB2, liveA2 t, liveB2 t]
  iintro ⟨HΦ, Ho, ⟨%d0, H0⟩, ⟨%d1, H1⟩, ⟨%d2, H2⟩⟩
  icases (PhiOpen2 V c t) $$ HΦ with ⟨%p, %hp, HS, HΦ⟩
  iapply (run2 c (grid2.coords t) _ _ _ _ _ _ _ _ ((dat2 V c).after 0 t) ((dat2 V c).after 1 t) _ p Set.univ _)
  iframe H0 H1 H2 HS
  iintro ⟨H0, H1, H2, HS⟩
  rw [← hp]
  isplitl [HS HΦ]; · iapply HΦ $$ HS
  isplitl [Ho]; · iexact Ho
  iframe H0 H1
  iapply (leavesO2 V c t d2) $$ H2

theorem hin2 (c : Dev nD) : Pipeline.ΦA spec2 c ⊢ (dat2 V c).Φ 0 := .rfl

theorem hout2 (c : Dev nD) : (dat2 V c).Φ (Fin.last cfg2.N) ⊢ Pipeline.ΦA spec2 c := by
  rw [PhiA2_eq]
  show iprop(_ ∗ _ ∗ _) ⊢ _
  iintro ⟨HS, HR, Hg⟩
  iframe HR Hg
  iexists _; iexact HS

end Cert.Kernel.Hand

end
-- ==== Proof.KReg3Body.lean ====
import proofs.«145575_j57698590654941_1_alg».proof.Proof.KReg3Defs
import proofs.«145575_j57698590654941_1_alg».proof.Proof.LibStore
import Idealize.ShloMosaic.Lib.Pipeline.Value
import Idealize.ShloMosaic.Lib.QrPanel.Panel

noncomputable section

namespace Cert.Kernel.Hand

open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

-- The body only reads its inputs: what it finds in an input window is the block it leaves there.
theorem held3 {c : Dev nD} {t : Fin cfg3.N} (w : Fin cfg3.W) (hw : (cfg3.win w).isOut = false) (d) :
    (dat3 V c).before w t d = (dat3 V c).after w t := by
  fin_cases w
  iterate 5
    exact ((dat3 V c).before_in_eq_fetched _ hw (fun _ => rfl) (fun _ _ _ => rfl)
      (fun _ => by dsimp only [dat3]; rfl) t d).trans (by dsimp only [dat3]; rfl)
  cases hw

-- The one store covers the whole output block, so the block reads back as the payload of the input blocks.
theorem body_obligation3 (c : Dev nD) : BodyObligation (dat3 (F := F) V c) (defs₀ (F := F)) Variants.none () Set.univ := fun t => by
  rw [bigSep_W3, bigSep_W3]
  simp only [held3 V 0 rfl, held3 V 1 rfl, held3 V 2 rfl, held3 V 3 rfl, held3 V 4 rfl]
  dsimp only [dat3, Dat.owesAt, Dat.bound]
  show _ ⊢ wp _ _ _ (bodyAt3 t) _
  unfold bodyAt3 owns
  rw [cc3__catcombine_kernel_eq_skeleton]; unfold cc3__catcombine_kernel_skel
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩⟩
  sl_exec
  sl_step
  iframe
  isplitl [H0]; · iexists f0; iframe %hf0 H0
  isplitl [H1]; · iexists f1; iframe %hf1 H1
  isplitl [H2]; · iexists f2; iframe %hf2 H2
  isplitl [H3]; · iexists f3; iframe %hf3 H3
  isplitl [H4]; · iexists f4; iframe %hf4 H4
  iexists _; iframe
  ipureintro
  rw [LibStore.stored QrPanel.Panel.zeros2, ← hf0, ← hf1, ← hf2, ← hf3, ← hf4]
  congr 1 <;> exact View.ld_unit_zero QrPanel.Panel.zeros2 _ _

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.Kernel.Hand

end
-- ==== Proof.KReg4Body.lean ====
import proofs.«145575_j57698590654941_1_alg».proof.Proof.KReg4Defs
import proofs.«145575_j57698590654941_1_alg».proof.Proof.LibStore
import Idealize.ShloMosaic.Lib.QrPanel.Panel

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen
open Cert.LibStore
open Idealize.ShloMosaic.QrPanel.Panel (zeros2)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond4_0 : ∀ t : Fin cfg4.N, cond4_0 (grid4.coords t) ↔ t.val = 0 := by decide +kernel

abbrev cond4_1 (i : grid4.Coords) : Prop := k4_cond2 i = 1#1

theorem idleAt4_5 : ∀ t : Fin cfg4.N, ¬cond4_1 (grid4.coords t) → idle4 5 (grid4.coords t) = true := by decide +kernel
theorem noFlush4_5 : ∀ t : Fin cfg4.N, ¬cond4_1 (grid4.coords t) → (win4 5).flush t = false := by decide +kernel
theorem liveAt4_5 : ∀ t : Fin cfg4.N, cond4_1 (grid4.coords t) → idle4 5 (grid4.coords t) = false := by decide +kernel

-- No grid point is both the first and the last.
theorem excl4 : ∀ i : grid4.Coords, cond4_0 i → ¬cond4_1 i := by decide +kernel

theorem run4 (c : Dev nD) {i : grid4.Coords}
    {arg2 : Memref sig .tc .vmem S512x512 .f32} {arg3 arg4 arg5 arg6 : Memref sig .tc .vmem S512x128 .f32} {arg7 arg8 : Memref sig .tc .vmem S1x1 .f32}
    {harg2 : arg2.IsWhole} {harg3 : arg3.IsWhole} {harg4 : arg4.IsWhole} {harg5 : arg5.IsWhole} {harg6 : arg6.IsWhole} {harg7 : arg7.IsWhole} {harg8 : arg8.IsWhole}
    (x0 : Vec F S512x512 .f32) (x1 x2 x3 x4 : Vec F S512x128 .f32) (x5 p a : Vec F S1x1 .f32)
    (ha : a = k4_pay1 (k4_pay5 x1 x2 x3 x4 x0) (k4_pay6 x1 x2 x3 x4 x0) (if cond4_0 i then k4_pay3 else p))
    {E : Set ℕ} {K : PUnit → sProp 𝕄} :
    iprop(owns c.tc arg2 fullShare x0 ∗ owns c.tc arg3 fullShare x1 ∗ owns c.tc arg4 fullShare x2
        ∗ owns c.tc arg5 fullShare x3 ∗ owns c.tc arg6 fullShare x4 ∗ owns c.tc arg7 fullShare x5
        ∗ owns c.tc arg8 fullShare p
        ∗ (iprop(owns c.tc arg2 fullShare x0 ∗ owns c.tc arg3 fullShare x1 ∗ owns c.tc arg4 fullShare x2
            ∗ owns c.tc arg5 fullShare x3 ∗ owns c.tc arg6 fullShare x4
            ∗ owns c.tc arg7 fullShare (if cond4_1 i then k4_pay2 a else x5) ∗ owns c.tc arg8 fullShare a) -∗ K ⟨⟩))
      ⊢ wp frame (wpE (defs₀ (F := F)) Variants.none c none) E (cc4_kernel i arg2 harg2 arg3 harg3 arg4 harg4 arg5 harg5 arg6 harg6 arg7 harg7 arg8 harg8) K := by
  subst ha
  simp only [cc4_kernel_eq_skeleton]; unfold cc4_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0 hf1 hf2 hf3 hf4 hf5 hfs
  by_cases hc0 : cond4_0 i <;> by_cases hc1 : cond4_1 i <;> (first | rw [if_pos hc0] | rw [if_neg hc0]) <;> (first | rw [if_pos hc1] | rw [if_neg hc1])
  · exact absurd hc1 (excl4 i hc0)
  all_goals
    sl_exec (disch := first | exact hc0 | exact hc1)
    sl_step
    iapply Hk
    isplitl [H0]; swap; isplitl [H1]; swap; isplitl [H2]; swap; isplitl [H3]; swap; isplitl [H4]; swap; isplitl [H5]
    all_goals iexists _; isplitr; swap
    all_goals first | iassumption | ipureintro
    all_goals first | rfl | (sl_unfold_run_names; rw [stored zeros2])
    all_goals simp only [View.readAt_eq_ld, View.ld_unit_zero (S := S512x512) zeros2, View.ld_unit_zero (S := S512x128) zeros2, View.ld_unit_zero (S := S1x1) zeros2, View.readCov_unit_zero (S := S1x1) _ zeros2]

theorem PhiA4_eq (c : Dev nD) :
    (Pipeline.ΦA spec4 c : sProp 𝕄)
      = iprop(iprop((∃ d, owns c.tc scM4 fullShare d) ∗ Pipeline.scopedRestBut spec4 c [cc4_scratch0]) ∗ (∃ r, prngReg c r)) := by
  unfold Pipeline.ΦA; rw [scopedRest4_split]; simp only [scM4, owns_whole]; rfl

-- Before the first point the accumulator holds anything; after point m it holds the running sum up to m.
theorem Phi4_open (c : Dev nD) (t : Fin (cfg4.N + 1)) :
    (dat4 V c).Φ t ⊢ iprop(∃ p, ⌜∀ m hm, t.val = m + 1 → p = accAt4 V c m hm⌝ ∗ owns c.tc scM4 fullShare p
      ∗ Pipeline.scopedRestBut spec4 c [cc4_scratch0] ∗ (∃ r, prngReg c r)) := by
  obtain ⟨n, h⟩ := t
  change PhiS4 V c n _ ⊢ _
  cases n with
  | zero =>
    unfold PhiS4; rw [PhiA4_eq]; iintro ⟨⟨⟨%d, HS⟩, HR⟩, Hg⟩; iexists d; iframe; ipureintro; intro m _ hm; cases hm
  | succ n =>
    unfold PhiS4; iintro ⟨HS, HR, Hg⟩; iexists accAt4 V c n (Nat.lt_of_succ_lt_succ h); iframe; ipureintro; intro m _ hm; cases hm; rfl

-- The running sum obeys its recursion: the tile's sum added to zero at the first point, to the previous sum otherwise.
theorem acc_step (c : Dev nD) (t : Fin cfg4.N) (p : Vec F S1x1 .f32) (hp : ∀ m hm, t.val = m + 1 → p = accAt4 V c m hm) :
    accAt4 V c t.val t.isLt = tile4 V c t (if cond4_0 (grid4.coords t) then k4_pay3 else p) := by
  obtain ⟨n, hn⟩ := t
  cases n with
  | zero => rw [if_pos ((hcond4_0 _).mpr rfl)]; rfl
  | succ n => rw [if_neg (fun h => Nat.succ_ne_zero n ((hcond4_0 _).mp h)), hp n _ rfl]; rfl

theorem before4 (c : Dev nD) (t : Fin cfg4.N) :
    (∀ d, (dat4 V c).before 0 t d = (dat4 V c).after 0 t) ∧ (∀ d, (dat4 V c).before 1 t d = (dat4 V c).after 1 t) ∧ (∀ d, (dat4 V c).before 2 t d = (dat4 V c).after 2 t)
      ∧ (∀ d, (dat4 V c).before 3 t d = (dat4 V c).after 3 t) ∧ (∀ d, (dat4 V c).before 4 t d = (dat4 V c).after 4 t) := by
  refine ⟨?_, ?_, ?_, ?_, ?_⟩ <;> exact (dat4 V c).before_in_eq_fetched _ rfl (fun _ => rfl) (fun _ _ _ => rfl) (fun _ => rfl) t

theorem body_obligation4 (c : Dev nD) : BodyObligation (dat4 (F := F) V c) (defs₀ (F := F)) Variants.none () Set.univ := fun t => by
  rw [bigSep_W4, bigSep_W4]
  obtain ⟨h0, h1, h2, h3, h4⟩ := before4 V c t
  simp only [h0, h1, h2, h3, h4]
  iintro ⟨HΦ, Ho, ⟨%d0, H0⟩, ⟨%d1, H1⟩, ⟨%d2, H2⟩, ⟨%d3, H3⟩, ⟨%d4, H4⟩, ⟨%d5, H5⟩⟩
  ihave ⟨%p, %hp, HS, HR, Hg⟩ := (Phi4_open V c _) $$ HΦ
  iapply run4 c ((dat4 V c).after 0 t) ((dat4 V c).after 1 t) ((dat4 V c).after 2 t) ((dat4 V c).after 3 t) ((dat4 V c).after 4 t) ((dat4 V c).before 5 t d5) p _ (acc_step V c t p hp)
  iframe H0 H1 H2 H3 H4 H5 HS
  iintro ⟨H0, H1, H2, H3, H4, H5, HS⟩
  rw [show (dat4 V c).Φ t.succ = PhiS4 V c (t.val + 1) t.isLt from rfl, show (dat4 V c).owesAt () t.succ = (dat4 V c).owesAt () t.castSucc from rfl]; simp only [PhiS4]
  iframe
  by_cases h1 : cond4_1 (grid4.coords t)
  · rw [if_pos h1, liveAt4_5 t h1]; iexact H5
  · rw [if_neg h1, idleAt4_5 t h1, noFlush4_5 t h1]; iexists _; iexact H5

theorem hin4 (c : Dev nD) : Pipeline.ΦA spec4 c ⊢ (dat4 V c).Φ 0 := Entails.refl _

theorem hout4 (c : Dev nD) : (dat4 V c).Φ (Fin.last cfg4.N) ⊢ Pipeline.ΦA spec4 c := by
  refine (Phi4_open V c _).trans ?_
  rw [PhiA4_eq]; iintro ⟨%p, -, HS, HR, Hg⟩; iframe HR Hg; iexists _; iexact HS

end Cert.Kernel.Hand

end
-- ==== Proof.KReg4Seg.lean ====
import proofs.«145575_j57698590654941_1_alg».proof.Proof.KChain
import proofs.«145575_j57698590654941_1_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode
open Cert.Kernel Cert.Kernel.Gen

variable {F : FTy → Type} [FloatOps F]

local notation "𝕄" => MT nD τ sig Unit (Elt F) ℕ (UR sig nD τ) ℕ

variable (V₀ : (c : Dev nD) → (b : Ref sig .tc) → Buf (Elt F) ((c : Thread nD τ).loc b)) (c : Dev nD)
  (V V' : (b : Ref sig .tc) → Buf (Elt F) ((c : Thread nD τ).loc b))
  (Fa : (w : Fin cfg4.W) → Buf (Elt F) ((cfg4.win w).arr.view.loc (c : Thread nD τ)))

-- The two halves of the full share compose to it, so a points-to at the full share is the pair of points-tos at the halves.
theorem arrays4_iff (hF : ∀ w, Fa w = V (Pipeline.arrRef spec4 w)) :
    (Pipeline.arrBufs (Ix := Unit) (Name := ℕ) (U := UR sig nD τ) (Lvl := ℕ) spec4 c V : sProp 𝕄) ⊣⊢ (dat4 V₀ c).arrays Fa := by
  have hs (w : Fin cfg4.W) : (cfg4.win w).arr.view.set = Finset.univ := (arr_whole4 w).set_eq_univ
  have hl : (Pipeline.arrBufs (Ix := Unit) (Name := ℕ) (U := UR sig nD τ) (Lvl := ℕ) spec4 c V : sProp 𝕄)
      = iprop((((c : Thread nD τ).loc main_arg5) ↦{fullShare} V main_arg5) ∗ (((c : Thread nD τ).loc main_v2) ↦{fullShare} V main_v2)
          ∗ (((c : Thread nD τ).loc main_v4) ↦{fullShare} V main_v4) ∗ (((c : Thread nD τ).loc main_v14) ↦{fullShare} V main_v14)) :=
    bigSep_eq_bigSepL_of_eq [main_arg5, main_v2, main_v4, main_v14] (by decide) (by decide) _
  have hr : ((dat4 V₀ c).arrays Fa : sProp 𝕄)
      = iprop((((c : Thread nD τ).loc main_arg5) ↦{fullShare} V main_arg5)
          ∗ (((c : Thread nD τ).loc main_v2) ↦{fullShare.left} V main_v2) ∗ (((c : Thread nD τ).loc main_v2) ↦{fullShare.right} V main_v2)
          ∗ (((c : Thread nD τ).loc main_v4) ↦{fullShare.left} V main_v4) ∗ (((c : Thread nD τ).loc main_v4) ↦{fullShare.right} V main_v4)
          ∗ (((c : Thread nD τ).loc main_v14) ↦{fullShare} V main_v14)) := by
    unfold Pipeline.Dat.arrays
    rw [bigSep_W4, hs 0, hs 1, hs 3, hs 5, hF 0, hF 1, hF 2, hF 3, hF 4, hF 5]
    rfl
  rw [hl, hr]
  constructor
  · iintro ⟨H0, H2, H4, H5⟩
    ihave H2 := (pointsTo_share (PosShare.mem_left_op_right fullShare)).1 $$ H2
    ihave H4 := (pointsTo_share (PosShare.mem_left_op_right fullShare)).1 $$ H4
    icases H2 with ⟨H2l, H2r⟩
    icases H4 with ⟨H4l, H4r⟩
    iframe
  · iintro ⟨H0, H2l, H2r, H4l, H4r, H5⟩
    iframe H0 H5
    isplitl [H2l H2r] <;> iapply (pointsTo_share (PosShare.mem_left_op_right fullShare)).2 <;> iframe

theorem arrays_of_unscopedBufs4 (hA : ∀ w, (dat4 V₀ c).A w = V (Pipeline.arrRef spec4 w)) :
    (unscopedBufs c V : sProp 𝕄) ⊢ iprop((dat4 V₀ c).arrays ((dat4 V₀ c).arrAt · 0) ∗ Pipeline.unscopedRest spec4 c V) := by
  rw [Pipeline.unscopedBufs_split₀ cfgs 4 winFacts₀4.arr_unscoped c V]
  exact sep_mono (arrays4_iff V₀ c V _ hA).1 .rfl

theorem unscopedBufs_of_arrays4 (hF : ∀ w, Fa w = V' (Pipeline.arrRef spec4 w))
    (hrest : ∀ b, b ∉ Finset.univ.image (Pipeline.arrRef spec4) → V' b = V b) :
    iprop((dat4 V₀ c).arrays Fa ∗ Pipeline.unscopedRest spec4 c V) ⊢ (unscopedBufs c V' : sProp 𝕄) := by
  rw [Pipeline.unscopedBufs_split₀ cfgs 4 winFacts₀4.arr_unscoped c V']
  refine sep_mono (arrays4_iff V₀ c V' Fa hF).2 (.of_eq ?_)
  unfold Pipeline.unscopedRest
  exact bigSep_congr fun b hb => by rw [hrest b (Finset.mem_sdiff.mp hb).2]

end Cert.Kernel.Hand

end
-- ==== Proof.KSegs.lean ====
import proofs.«145575_j57698590654941_1_alg».proof.Proof.KChain
import proofs.«145575_j57698590654941_1_alg».proof.Proof.KReg0Body
import proofs.«145575_j57698590654941_1_alg».proof.Proof.KReg1Body
import proofs.«145575_j57698590654941_1_alg».proof.Proof.KReg2Body
import proofs.«145575_j57698590654941_1_alg».proof.Proof.KReg3Body
import proofs.«145575_j57698590654941_1_alg».proof.Proof.KReg4Body
import proofs.«145575_j57698590654941_1_alg».proof.Proof.KReg4Seg
import proofs.«145575_j57698590654941_1_alg».proof.Proof.Gen.Kernel.Regions

noncomputable section

namespace Cert.Kernel.Hand

open Idealize.ShloMosaic Idealize.ShloMosaic.TcCoe Idealize.ShloMosaic.Tactic
open Idealize.SL Idealize.SL.BI
open scoped Idealize.SL.BI
open Idealize.SL.BI.BIBase Idealize.SL.BI.Laws Idealize.SL.ProofMode
open Idealize.ShloMosaic.Rounds
open Idealize.ShloMosaic.Pipeline (BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

theorem W1_of (c : Dev nD) (r : Ref sig .tc) (h : r ≠ main_v0) :
    W1 m c (Proc.devRef .tc r) = W0 m c (Proc.devRef .tc r) :=
  Function.update_of_ne (StableHlo.devRef_ne_of_ne h) ..
theorem W2_of (c : Dev nD) (r : Ref sig .tc) (h : r ≠ main_v1) :
    W2 m c (Proc.devRef .tc r) = W1 m c (Proc.devRef .tc r) :=
  Function.update_of_ne (StableHlo.devRef_ne_of_ne h) ..
theorem W3_of (c : Dev nD) (r : Ref sig .tc) (h : r ∉ hostOps2_W) :
    W3 m c (Proc.devRef .tc r) = W2 m c (Proc.devRef .tc r) :=
  StableHlo.after_of_writes_sub hostOps2 _ hostOps2_writes h
theorem W4_of (c : Dev nD) (r : Ref sig .tc) (h : r ≠ main_v3) :
    W4 m c (Proc.devRef .tc r) = W3 m c (Proc.devRef .tc r) :=
  Function.update_of_ne (StableHlo.devRef_ne_of_ne h) ..
theorem W5_of (c : Dev nD) (r : Ref sig .tc) (h : r ∉ hostOps3_W) :
    W5 m c (Proc.devRef .tc r) = W4 m c (Proc.devRef .tc r) :=
  StableHlo.after_of_writes_sub hostOps3 _ hostOps3_writes h
theorem W6_of (c : Dev nD) (r : Ref sig .tc) (h : r ≠ main_v10) :
    W6 m c (Proc.devRef .tc r) = W5 m c (Proc.devRef .tc r) :=
  Function.update_of_ne (StableHlo.devRef_ne_of_ne h) ..
theorem W7_of (c : Dev nD) (r : Ref sig .tc) (h : r ∉ hostOps4_W) :
    W7 m c (Proc.devRef .tc r) = W6 m c (Proc.devRef .tc r) :=
  StableHlo.after_of_writes_sub hostOps4 _ hostOps4_writes h
theorem W8_of (c : Dev nD) (r : Ref sig .tc) (h : r ≠ main_v14) :
    W8 m c (Proc.devRef .tc r) = W7 m c (Proc.devRef .tc r) :=
  Function.update_of_ne (StableHlo.devRef_ne_of_ne h) ..
theorem W9_of (c : Dev nD) (r : Ref sig .tc) (h : r ∉ hostOps5_W) :
    W9 m c (Proc.devRef .tc r) = W8 m c (Proc.devRef .tc r) :=
  StableHlo.after_of_writes_sub hostOps5 _ hostOps5_writes h

-- Each of the nine items leaves a reference it does not write alone, so the nine equalities compose.
theorem W9_of_all (c : Dev nD) (r : Ref sig .tc) (h : r ≠ main_v0 ∧ r ≠ main_v1 ∧ r ∉ hostOps2_W ∧ r ≠ main_v3 ∧ r ∉ hostOps3_W
      ∧ r ≠ main_v10 ∧ r ∉ hostOps4_W ∧ r ≠ main_v14 ∧ r ∉ hostOps5_W) :
    W9 m c (Proc.devRef .tc r) = m ((c : Thread nD τ).loc r) := by
  obtain ⟨h1, h2, h3, h4, h5, h6, h7, h8, h9⟩ := h
  exact (W9_of m c r h9).trans <| (W8_of m c r h8).trans <| (W7_of m c r h7).trans <| (W6_of m c r h6).trans <|
    (W5_of m c r h5).trans <| (W4_of m c r h4).trans <| (W3_of m c r h3).trans <| (W2_of m c r h2).trans <| W1_of m c r h1

theorem W9_main_arg0 (c : Dev nD) : W9 m c (Proc.devRef .tc main_arg0) = m ((c : Thread nD τ).loc main_arg0) :=
  W9_of_all m c _ (by decide)
theorem W9_main_arg1 (c : Dev nD) : W9 m c (Proc.devRef .tc main_arg1) = m ((c : Thread nD τ).loc main_arg1) :=
  W9_of_all m c _ (by decide)
theorem W9_main_arg2 (c : Dev nD) : W9 m c (Proc.devRef .tc main_arg2) = m ((c : Thread nD τ).loc main_arg2) :=
  W9_of_all m c _ (by decide)
theorem W9_main_arg3 (c : Dev nD) : W9 m c (Proc.devRef .tc main_arg3) = m ((c : Thread nD τ).loc main_arg3) :=
  W9_of_all m c _ (by decide)
theorem W9_main_arg4 (c : Dev nD) : W9 m c (Proc.devRef .tc main_arg4) = m ((c : Thread nD τ).loc main_arg4) :=
  W9_of_all m c _ (by decide)
theorem W9_main_arg5 (c : Dev nD) : W9 m c (Proc.devRef .tc main_arg5) = m ((c : Thread nD τ).loc main_arg5) :=
  W9_of_all m c _ (by decide)

-- Every region changes one array of the valuation and leaves every other buffer as entered, so one record serves all five.
def mkReg (p : Fin 5) (W W' : Dev nD → Valuation τ sig (Elt F)) (wo : Fin (cfgs p).W)
    (win : Pipeline.WinFacts₀ (cfgs p).spec) (block_pos : ∀ w, 0 < ((cfgs p).spec w).block.numel)
    (stage_whole : ∀ (w : Fin (cfgs p).W) (s : Fin ((cfgs p).spec w).nbuf), (((cfgs p).spec w).stage s).IsWhole)
    (hbody : ∀ c, BodyObligation (pdats m p c) defs₀ 𝒱₀ () Set.univ)
    (howed : ∀ c t, (pdats m p c).owed t = 0) (hrec : ∀ c, (pdats m p c).recorded 0 = Set.univ)
    (hin : ∀ c, Pipeline.ΦA (cfgs p).spec c ⊢ (pdats m p c).Φ 0)
    (hout : ∀ c, (pdats m p c).Φ (Fin.last (cfgs p).N) ⊢ Pipeline.ΦA (cfgs p).spec c)
    (hA : ∀ c w, (pdats m p c).A w = Vr W c (Pipeline.arrRef (cfgs p).spec w))
    (ho : ∀ c, Vr W' c (Pipeline.arrRef (cfgs p).spec wo) = (pdats m p c).arrAt wo (cfgs p).N)
    (hne : ∀ c r, r ≠ Pipeline.arrRef (cfgs p).spec wo → Vr W' c r = Vr W c r)
    (hins : ∀ w, w ≠ wo → ((cfgs p).win w).isOut = false ∧ Pipeline.arrRef (cfgs p).spec w ≠ Pipeline.arrRef (cfgs p).spec wo)
    (hsplit : ∀ c V, (∀ w, (pdats m p c).A w = V (Pipeline.arrRef (cfgs p).spec w)) →
      (unscopedBufs c V : sProp 𝕄) ⊢ iprop((pdats m p c).arrays ((pdats m p c).arrAt · 0) ∗ Pipeline.unscopedRest (cfgs p).spec c V))
    (hjoin : ∀ c V V' Fa, (∀ w, Fa w = V' (Pipeline.arrRef (cfgs p).spec w)) →
      (∀ b, b ∉ Finset.univ.image (Pipeline.arrRef (cfgs p).spec) → V' b = V b) →
      iprop((pdats m p c).arrays Fa ∗ Pipeline.unscopedRest (cfgs p).spec c V) ⊢ (unscopedBufs c V' : sProp 𝕄)) :
    Pipeline.RegionSeg (pcfgs (F := F)) adm (pdats m) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (Vr W c)
  hentry c := by
    have hs := hsplit c (Vr W c) (hA c)
    rw [Pipeline.unscopedBufs_held] at hs
    unfold Pipeline.prefHeld Pipeline.Dat.owesAt Pipeline.owesWithin Pipeline.Dat.bound
    rw [show (Finset.univ : Finset (Fin 0)) = ∅ from rfl, BI.bigSep_empty, howed, hrec]
    iintro ⟨⟨Hb, Hp, %O, Ho⟩, -, -⟩
    ihave Hs := hs $$ Hb
    icases Hs with ⟨Ha, Hr⟩
    imodintro
    iframe Ha Hp Hr
    isplitr; · iempintro
    iexists O; iframe
    ipureintro; exact fun _ _ => Or.inl trivial
  hin c := by
    refine .trans ?_ (hin c)
    unfold Pipeline.ΦA
    iintro ⟨Hp, -, Hs⟩
    iframe
  hout c := by
    rw [Pipeline.ownSems0_none]
    refine (hout c).trans ?_
    unfold Pipeline.ΦA
    iintro ⟨Hs, Hp⟩
    iframe
    iempintro
  hexit c := by
    have hj := hjoin c (Vr W c) (Vr W' c) _ (fun w => by
        by_cases e : w = wo
        · rw [e, ho]
        · rw [Pipeline.Dat.arrAt_in _ w (hins w e).1, hA, hne c _ (hins w e).2])
      fun b hb => hne c b fun e => hb (Finset.mem_image.mpr ⟨wo, Finset.mem_univ _, e.symm⟩)
    rw [Pipeline.unscopedBufs_held] at hj
    unfold Pipeline.Dat.owesAt Pipeline.owesWithin
    rw [howed]
    iintro ⟨Ha, ⟨%O, -, Ho⟩, Hp, Hr⟩
    imodintro
    isplitl [Ha Hr]
    · iapply hj; iframe
    isplitl [Hp]; · iexact Hp
    iexists O; iexact Ho

def reg0 := mkReg m 0 (W0 m) (W1 m) 2 launch0.win.to₀ launch0.block_pos launch0.stage_whole (body_obligation0 _) (fun _ _ => rfl) (fun _ => rfl)
  (hin0 _) (hout0 _) (A_eq0 _) (fun _ => Function.update_self ..) (W1_of m) (by decide)
  (fun c => Pipeline.arrays_of_unscopedBufs _ _ _ launch0.win launch0.arr_whole c ((pdats m 0 c).share_full fun _ => rfl))
  (fun c => Pipeline.unscopedBufs_of_arrays _ _ launch0.win launch0.arr_whole c _ ((pdats m 0 c).share_full fun _ => rfl))

def reg1 := mkReg m 1 (W1 m) (W2 m) 2 launch1.win.to₀ launch1.block_pos launch1.stage_whole (body_obligation1 _) (fun _ _ => rfl) (fun _ => rfl)
  (hin1 _) (hout1 _) (A_eq1 _) (fun _ => Function.update_self ..) (W2_of m) (by decide)
  (fun c => Pipeline.arrays_of_unscopedBufs _ _ _ launch1.win launch1.arr_whole c ((pdats m 1 c).share_full fun _ => rfl))
  (fun c => Pipeline.unscopedBufs_of_arrays _ _ launch1.win launch1.arr_whole c _ ((pdats m 1 c).share_full fun _ => rfl))

def reg2 := mkReg m 2 (W3 m) (W4 m) 2 launch2.win.to₀ launch2.block_pos launch2.stage_whole (body_obligation2 _) (fun _ _ => rfl) (fun _ => rfl)
  (hin2 _) (hout2 _) (A_eq2 _) (fun _ => Function.update_self ..) (W4_of m) (by decide)
  (fun c => Pipeline.arrays_of_unscopedBufs _ _ _ launch2.win launch2.arr_whole c ((pdats m 2 c).share_full fun _ => rfl))
  (fun c => Pipeline.unscopedBufs_of_arrays _ _ launch2.win launch2.arr_whole c _ ((pdats m 2 c).share_full fun _ => rfl))

def reg3 := mkReg m 3 (W5 m) (W6 m) 5 launch3.win.to₀ launch3.block_pos launch3.stage_whole (body_obligation3 _) (fun _ _ => rfl) (fun _ => rfl)
  (hin3 _) (hout3 _) (A_eq3 _) (fun _ => Function.update_self ..) (W6_of m) (by decide)
  (fun c => Pipeline.arrays_of_unscopedBufs _ _ _ launch3.win launch3.arr_whole c ((pdats m 3 c).share_full fun _ => rfl))
  (fun c => Pipeline.unscopedBufs_of_arrays _ _ launch3.win launch3.arr_whole c _ ((pdats m 3 c).share_full fun _ => rfl))

def reg4 := mkReg m 4 (W7 m) (W8 m) 5 winFacts₀4 block_pos4 stage_whole4 (body_obligation4 _) (fun _ _ => rfl) (fun _ => rfl)
  (hin4 _) (hout4 _) (A_eq4 _) (fun _ => Function.update_self ..) (W8_of m) (by decide)
  (arrays_of_unscopedBufs4 _) (unscopedBufs_of_arrays4 _)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m c) ∗ ∃ r, prngReg c r)

abbrev segs : List (Pipeline.Seg (pcfgs (F := F)) adm (pdats m) () defs₀ 𝒱₀ L lv) :=
  [ .region (reg0 m),
    .region (reg1 m),
    .host (hseg hostOps2 hostOps2_sub hostOps2_fresh (W2 m)),
    .region (reg2 m),
    .host (hseg hostOps3 hostOps3_sub hostOps3_fresh (W4 m)),
    .region (reg3 m),
    .host (hseg hostOps4 hostOps4_sub hostOps4_fresh (W6 m)),
    .region (reg4 m),
    .host (hseg hostOps5 hostOps5_sub hostOps5_fresh (W8 m)) ]

theorem main_run (c : Dev nD) : main (F := F) c = Pipeline.Seg.run (segs m) := (main_chain c).trans (by chain_rfl)

theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Ho, -, Hp, -⟩, -⟩
      imodintro
      iframe Hh
      isplitl [Hp]; · iexists _; iexact Hp
      iexists ∅; iexact Ho)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      iframe)
    (hQ := fun s h => h)

theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c)⟩) (run_main m ρ)

end Cert.Kernel.Hand

end
-- ==== Proof.Reg0Defs.lean ====
import proofs.«145575_j57698590654941_1_alg».proof.Proof.Gen.KernelIdeal.Launch
import proofs.«145575_j57698590654941_1_alg».proof.Proof.Gen.KernelIdeal.Skeleton
import proofs.«145575_j57698590654941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.SL.RA
open Idealize.ShloMosaic.Pipeline (Dat)
open Cert.KernelIdeal Cert.KernelIdeal.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

end Cert.KernelIdeal.Hand

end
-- ==== Proof.Reg1Defs.lean ====
import proofs.«145575_j57698590654941_1_alg».proof.Proof.Gen.KernelIdeal.Launch
import proofs.«145575_j57698590654941_1_alg».proof.Proof.Gen.KernelIdeal.Skeleton
import proofs.«145575_j57698590654941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open scoped Idealize.SL.BI
open Idealize.SL.BI.BIBase
open Idealize.ShloMosaic.Pipeline (Dat)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accAt1 (c : Dev nD) : (n : ℕ) → n < cfg1.N → Vec F S1024x128 .f32
  | 0, h => k1_pay2 (iblk1 V c 0 ⟨0, h⟩) (iblk1 V c 1 ⟨0, h⟩) (k1_pay1 (F := F))
  | n + 1, h =>
    if (n + 1) % 4 = 0 then k1_pay2 (iblk1 V c 0 ⟨n + 1, h⟩) (iblk1 V c 1 ⟨n + 1, h⟩) (k1_pay1 (F := F))
    else k1_pay2 (iblk1 V c 0 ⟨n + 1, h⟩) (iblk1 V c 1 ⟨n + 1, h⟩) (accAt1 c n (Nat.lt_of_succ_lt h))

abbrev scM1 : Memref sig .tc .vmem S1024x128 .f32 := Memref.whole cc1_scratch0

def PhiS1 (c : Dev nD) : (n : ℕ) → n ≤ cfg1.N → sProp 𝕄
  | 0, _ => Pipeline.ΦA spec1 c
  | n + 1, hn => iprop(owns (c : Thread nD τ) scM1 fullShare (accAt1 V c n hn)
      ∗ Pipeline.scopedRestBut (Ix := Unit) (Name := ℕ) (U := UR sig nD τ) (Lvl := ℕ) (Val := Elt F) spec1 c [cc1_scratch0]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

end Cert.KernelIdeal.Hand

end
-- ==== Proof.Reg2Defs.lean ====
import proofs.«145575_j57698590654941_1_alg».proof.Proof.Gen.KernelIdeal.Launch
import proofs.«145575_j57698590654941_1_alg».proof.Proof.Gen.KernelIdeal.Skeleton
import proofs.«145575_j57698590654941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open scoped Idealize.SL.BI
open Idealize.SL.BI.BIBase
open Idealize.ShloMosaic.Pipeline (Dat)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def accAt2 (c : Dev nD) : (n : ℕ) → n < cfg2.N → Vec F S1024x128 .f32
  | 0, h => k2_pay2 (iblk2 V c 0 ⟨0, h⟩) (iblk2 V c 1 ⟨0, h⟩) (k2_pay1 (F := F))
  | n + 1, h =>
    if (n + 1) % 4 = 0 then k2_pay2 (iblk2 V c 0 ⟨n + 1, h⟩) (iblk2 V c 1 ⟨n + 1, h⟩) (k2_pay1 (F := F))
    else k2_pay2 (iblk2 V c 0 ⟨n + 1, h⟩) (iblk2 V c 1 ⟨n + 1, h⟩) (accAt2 c n (Nat.lt_of_succ_lt h))

abbrev scM2 : Memref sig .tc .vmem S1024x128 .f32 := Memref.whole cc2_scratch0

def PhiS2 (c : Dev nD) : (n : ℕ) → n ≤ cfg2.N → sProp 𝕄
  | 0, _ => Pipeline.ΦA spec2 c
  | n + 1, hn => iprop(owns (c : Thread nD τ) scM2 fullShare (accAt2 V c n hn)
      ∗ Pipeline.scopedRestBut (Ix := Unit) (Name := ℕ) (U := UR sig nD τ) (Lvl := ℕ) (Val := Elt F) spec2 c [cc2_scratch0]
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

end Cert.KernelIdeal.Hand

end
-- ==== Proof.Reg3Defs.lean ====
import proofs.«145575_j57698590654941_1_alg».proof.Proof.Gen.KernelIdeal.Launch
import proofs.«145575_j57698590654941_1_alg».proof.Proof.Gen.KernelIdeal.Skeleton
import proofs.«145575_j57698590654941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.SL.RA
open Idealize.ShloMosaic.Pipeline (Dat)
open Cert.KernelIdeal Cert.KernelIdeal.Gen

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay1 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

end Cert.KernelIdeal.Hand

end
-- ==== Proof.Reg4Defs.lean ====
import proofs.«145575_j57698590654941_1_alg».proof.Proof.Gen.KernelIdeal.Launch
import proofs.«145575_j57698590654941_1_alg».proof.Proof.Gen.KernelIdeal.Skeleton
import proofs.«145575_j57698590654941_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI Idealize.SL.BI.BIBase
open scoped Idealize.SL.BI
open Idealize.ShloMosaic.Pipeline (Dat)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def tile4 (c : Dev nD) (t : Fin cfg4.N) (prev : Vec F S1x1 .f32) : Vec F S1x1 .f32 :=
  k4_pay1 (k4_pay5 (iblk4 V c 1 t) (iblk4 V c 2 t) (iblk4 V c 3 t) (iblk4 V c 4 t) (iblk4 V c 0 t))
    (k4_pay6 (iblk4 V c 1 t) (iblk4 V c 2 t) (iblk4 V c 3 t) (iblk4 V c 4 t) (iblk4 V c 0 t)) prev

def accAt4 (c : Dev nD) : (n : ℕ) → n < cfg4.N → Vec F S1x1 .f32
  | 0, h => tile4 V c ⟨0, h⟩ (k4_pay3 (F := F))
  | n + 1, h => tile4 V c ⟨n + 1, h⟩ (accAt4 c n (Nat.lt_of_succ_lt h))

abbrev scM4 : Memref sig .tc .vmem S1x1 .f32 := Memref.whole cc4_scratch0

def PhiS4 (c : Dev nD) : (n : ℕ) → n ≤ cfg4.N → sProp 𝕄
  | 0, _ => Pipeline.ΦA spec4 c
  | n + 1, hn => iprop(owns (c : Thread nD τ) scM4 fullShare (accAt4 V c n hn)
      ∗ Pipeline.scopedRestBut (Ix := Unit) (Name := ℕ) (U := UR sig nD τ) (Lvl := ℕ) (Val := Elt F) spec4 c [cc4_scratch0]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => k4_pay2 (accAt4 V c t.val t.isLt)
  Φ t := PhiS4 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

theorem A_eq4 (c : Dev nD) (w : Fin cfg4.W) : (dat4 V c).A w = V c (Pipeline.arrRef spec4 w) := by
  dsimp only [dat4]

end Cert.KernelIdeal.Hand

end
-- ==== Proof.Chain.lean ====
import proofs.«145575_j57698590654941_1_alg».proof.Proof.Reg0Defs
import proofs.«145575_j57698590654941_1_alg».proof.Proof.Reg1Defs
import proofs.«145575_j57698590654941_1_alg».proof.Proof.Reg2Defs
import proofs.«145575_j57698590654941_1_alg».proof.Proof.Reg3Defs
import proofs.«145575_j57698590654941_1_alg».proof.Proof.Reg4Defs
import Idealize.ShloMosaic.Lib.Pipeline.Regions

noncomputable section

namespace Cert.KernelIdeal.Hand

open Idealize.ShloMosaic Idealize.ShloMosaic.TcCoe
open Idealize.SL Idealize.SL.BI
open scoped Idealize.SL.BI
open Idealize.SL.BI.BIBase
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev Vr (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)
def W1 (c : Dev nD) : Valuation τ sig (Elt F) :=
  Function.update (W0 m c) (Proc.devRef .tc main_v0) ((dat0 (Vr (W0 m)) c).arrAt 2 cfg0.N)
def W2 (c : Dev nD) : Valuation τ sig (Elt F) :=
  Function.update (W1 m c) (Proc.devRef .tc main_v1) ((dat1 (Vr (W1 m)) c).arrAt 2 cfg1.N)
abbrev W3 : Dev nD → Valuation τ sig (Elt F) := fun c => StableHlo.after hostOps2 (W2 m c)
def W4 (c : Dev nD) : Valuation τ sig (Elt F) :=
  Function.update (W3 m c) (Proc.devRef .tc main_v3) ((dat2 (Vr (W3 m)) c).arrAt 2 cfg2.N)
abbrev W5 : Dev nD → Valuation τ sig (Elt F) := fun c => StableHlo.after hostOps3 (W4 m c)
def W6 (c : Dev nD) : Valuation τ sig (Elt F) :=
  Function.update (W5 m c) (Proc.devRef .tc main_v10) ((dat3 (Vr (W5 m)) c).arrAt 5 cfg3.N)
abbrev W7 : Dev nD → Valuation τ sig (Elt F) := fun c => StableHlo.after hostOps4 (W6 m c)
def W8 (c : Dev nD) : Valuation τ sig (Elt F) :=
  Function.update (W7 m c) (Proc.devRef .tc main_v14) ((dat4 (Vr (W7 m)) c).arrAt 5 cfg4.N)
abbrev W9 : Dev nD → Valuation τ sig (Elt F) := fun c => StableHlo.after hostOps5 (W8 m c)

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (Vr (W0 m)) c
  | ⟨1, _⟩ => fun c => dat1 (Vr (W1 m)) c
  | ⟨2, _⟩ => fun c => dat2 (Vr (W3 m)) c
  | ⟨3, _⟩ => fun c => dat3 (Vr (W5 m)) c
  | ⟨4, _⟩ => fun c => dat4 (Vr (W7 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

end Cert.KernelIdeal.Hand

end
-- ==== Proof.Reg0Body.lean ====
import proofs.«145575_j57698590654941_1_alg».proof.Proof.Reg0Defs
import proofs.«145575_j57698590654941_1_alg».proof.Proof.LibStore
import Idealize.ShloMosaic.Lib.Pipeline.Value
import Idealize.ShloMosaic.Lib.QrPanel.Panel

noncomputable section

namespace Cert.KernelIdeal.Hand

open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

-- The body only reads its inputs: what it finds in an input window is the block it leaves there.
theorem held0 {c : Dev nD} {t : Fin cfg0.N} (w : Fin cfg0.W) (hw : (cfg0.win w).isOut = false) (d) :
    (dat0 V c).before w t d = (dat0 V c).after w t := by
  fin_cases w
  iterate 2
    exact ((dat0 V c).before_in_eq_fetched _ hw (fun _ => rfl) (fun _ _ _ => rfl)
      (fun _ => by dsimp only [dat0]; rfl) t d).trans (by dsimp only [dat0]; rfl)
  cases hw

-- The one store covers the whole output block, so the block reads back as the payload of the input blocks.
theorem body_obligation0 (c : Dev nD) : BodyObligation (dat0 (F := F) V c) (defs₀ (F := F)) Variants.none () Set.univ := fun t => by
  rw [bigSep_W0, bigSep_W0]
  simp only [held0 V 0 rfl, held0 V 1 rfl]
  dsimp only [dat0, Dat.owesAt, Dat.bound]
  show _ ⊢ wp _ _ _ (bodyAt0 t) _
  unfold bodyAt0 owns
  rw [cc0__support_kernel_eq_skeleton]; unfold cc0__support_kernel_skel
  iintro ⟨HΦ, Ho, ⟨%_, %f0, %hf0, H0⟩, ⟨%_, %f1, %hf1, H1⟩, ⟨%_, %f2, -, H2⟩⟩
  sl_exec
  sl_step
  iframe
  isplitl [H0]; · iexists f0; iframe %hf0 H0
  isplitl [H1]; · iexists f1; iframe %hf1 H1
  iexists _; iframe
  ipureintro
  rw [LibStore.stored QrPanel.Panel.zeros2, ← hf0, ← hf1]
  congr 1 <;> exact View.ld_unit_zero QrPanel.Panel.zeros2 _ _

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

end Cert.KernelIdeal.Hand

end
-- ==== Proof.Reg1Body.lean ====
import proofs.«145575_j57698590654941_1_alg».proof.Proof.Reg1Defs
import proofs.«145575_j57698590654941_1_alg».proof.Proof.LibStore
import Idealize.ShloMosaic.Lib.QrPanel.Panel

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Idealize.ShloMosaic.QrPanel.Panel (zeros2)
open Cert.KernelIdeal Cert.KernelIdeal.Gen Cert.LibStore

variable {F : FTy → Type} [FloatOps F]

local notation "𝕄" => MT nD τ sig Unit (Elt F) ℕ (UR sig nD τ) ℕ

variable (V : (c : Dev nD) → (b : Ref sig .tc) → Buf (Elt F) (c.tc.loc b))

abbrev condReset1 (i : grid1.Coords) : Prop :=
  (Scalar.cmpi .ne (Scalar.extui (Scalar.cmpi .eq (BitVec.ofNat 32 (i 1).val) 0#32)) 0#32) = 1#1

theorem hcondReset1 : ∀ t : Fin cfg1.N, condReset1 (grid1.coords t) ↔ t.val % 4 = 0 := by decide +kernel

abbrev condFlush1 (i : grid1.Coords) : Prop := k1_cond2 i = 1#1

theorem run1 (c : Dev nD) (i : grid1.Coords)
    (arg2 : Memref sig .tc .vmem S1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (x0 : Vec F S1024x1024 .f32) (x1 o p : Vec F S1024x128 .f32) (E : Set ℕ) (K : PUnit → sProp 𝕄) :
    iprop(owns c.tc arg2 fullShare x0 ∗ owns c.tc arg3 fullShare x1
        ∗ owns c.tc arg4 fullShare o ∗ owns c.tc arg5 fullShare p
        ∗ (iprop(owns c.tc arg2 fullShare x0 ∗ owns c.tc arg3 fullShare x1
            ∗ owns c.tc arg4 fullShare
                (if condFlush1 i then k1_pay2 x0 x1 (if condReset1 i then k1_pay1 else p) else o)
            ∗ owns c.tc arg5 fullShare (k1_pay2 x0 x1 (if condReset1 i then k1_pay1 else p))) -∗ K ⟨⟩))
      ⊢ wp frame (wpE defs₀ Variants.none c none) E
          (cc1__adjmatvec_kernel i arg2 harg2 arg3 harg3 arg4 harg4 arg5 harg5) K := by
  simp only [cc1__adjmatvec_kernel_eq_skeleton]; unfold cc1__adjmatvec_kernel_skel
  unfold owns
  iintro ⟨⟨%f0, %h0, H0⟩, ⟨%f1, %h1, H1⟩, ⟨%fo, %ho, HO⟩, ⟨%fs, %hs, HS⟩, Hk⟩
  subst h0 h1 ho hs
  by_cases hc0 : condReset1 i <;> by_cases hc1 : condFlush1 i
  all_goals
    first | rw [if_pos hc0] | rw [if_neg hc0]
    first | rw [if_pos hc1] | rw [if_neg hc1]
    sl_exec (disch := first | exact hc0 | exact hc1)
    sl_step
    iapply Hk
    sl_unfold_words
    simp only [View.readAt_eq_ld, View.ld_unit_zero (S := S1024x1024) zeros2, View.ld_unit_zero (S := S1024x128) zeros2]
    repeat rw [readCov zeros2]
    isplitl [H0]; · iapply (reown c.tc rfl) $$ H0
    isplitl [H1]; · iapply (reown c.tc rfl) $$ H1
    isplitl [HO]; · first | iapply (reown c.tc (stored zeros2)) $$ HO | iapply (reown c.tc rfl) $$ HO
    iapply (reown c.tc (stored zeros2)) $$ HS

theorem PhiA1_eq (c : Dev nD) :
    (Pipeline.ΦA spec1 c : sProp 𝕄)
      = iprop(iprop(iprop(∃ d, owns c.tc scM1 fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1, owns_whole]; rfl

-- At every position the invariant lends the accumulator at what the point's value continues from.
theorem PhiOpen1 (c : Dev nD) (t : Fin cfg1.N) :
    (dat1 V c).Φ t.castSucc ⊢ ∃ p,
      ⌜accAt1 V c t.val t.isLt = k1_pay2 ((dat1 V c).after 0 t) ((dat1 V c).after 1 t)
        (if condReset1 (grid1.coords t) then k1_pay1 else p)⌝
      ∗ owns c.tc scM1 fullShare p
      ∗ (owns c.tc scM1 fullShare (accAt1 V c t.val t.isLt) -∗ (dat1 V c).Φ t.succ) := by
  obtain ⟨n, hn⟩ := t
  cases n with
  | zero =>
    show Pipeline.ΦA spec1 c ⊢ ∃ p, _ ∗ _ ∗ (_ -∗ iprop(_ ∗ _ ∗ _))
    rw [PhiA1_eq]
    iintro ⟨⟨⟨%p, HS⟩, HR⟩, Hg⟩
    iexists p
    isplitr
    · ipureintro; exact (congrArg (k1_pay2 _ _) (if_pos ((hcondReset1 ⟨0, hn⟩).mpr rfl))).symm
    iframe HS
    iintro HS
    iframe
  | succ n =>
    show iprop(_ ∗ _) ⊢ ∃ p, _ ∗ _ ∗ (_ -∗ iprop(_ ∗ _))
    iintro ⟨HS, HR⟩
    iexists accAt1 V c n (Nat.lt_of_succ_lt hn)
    isplitr
    · ipureintro
      exact (if_congr (hcondReset1 ⟨n + 1, hn⟩).symm rfl rfl).trans (apply_ite (k1_pay2 _ _) _ _ _).symm
    iframe HS
    iintro HS
    iframe

theorem beforeA1 (c : Dev nD) (t : Fin cfg1.N) (d) : (dat1 V c).before 0 t d = (dat1 V c).after 0 t :=
  ((dat1 V c).before_fetched 0 t (fetch1_0 t) d).trans rfl
theorem beforeB1 (c : Dev nD) (t : Fin cfg1.N) (d) : (dat1 V c).before 1 t d = (dat1 V c).after 1 t :=
  ((dat1 V c).before_fetched 1 t (fetch1_1 t) d).trans rfl

theorem liveA1 : ∀ t : Fin cfg1.N, cfg1.idle 0 (grid1.coords t) = false := by decide +kernel
theorem liveB1 : ∀ t : Fin cfg1.N, cfg1.idle 1 (grid1.coords t) = false := by decide +kernel
theorem liveO1 : ∀ t : Fin cfg1.N, condFlush1 (grid1.coords t) → cfg1.idle 2 (grid1.coords t) = false := by
  decide +kernel
theorem idleO1 : ∀ t : Fin cfg1.N, ¬condFlush1 (grid1.coords t) →
    cfg1.idle 2 (grid1.coords t) = true ∧ (cfg1.win 2).flush t = false := by decide +kernel

theorem leavesO1 (c : Dev nD) (t : Fin cfg1.N) (d) :
    owns c.tc (st1_2 t) fullShare
        (if condFlush1 (grid1.coords t) then accAt1 V c t.val t.isLt else (dat1 V c).before 2 t d)
      ⊢ (dat1 V c).leavesExact 2 t := by
  unfold Dat.leavesExact
  by_cases h : condFlush1 (grid1.coords t)
  · rw [if_pos h, liveO1 t h]; exact .rfl
  · rw [if_neg h, (idleO1 t h).1, (idleO1 t h).2]; iintro H; iexists d; iexact H

theorem body_obligation1 (c : Dev nD) : BodyObligation (dat1 (F := F) V c) (defs₀ (F := F)) Variants.none () Set.univ := fun t => by
  rw [bigSep_W1, bigSep_W1]
  show _ ⊢ wp frame _ Set.univ (bodyAt1 t) _
  simp only [beforeA1, beforeB1, liveA1 t, liveB1 t]
  iintro ⟨HΦ, Ho, ⟨%d0, H0⟩, ⟨%d1, H1⟩, ⟨%d2, H2⟩⟩
  icases (PhiOpen1 V c t) $$ HΦ with ⟨%p, %hp, HS, HΦ⟩
  iapply (run1 c (grid1.coords t) _ _ _ _ _ _ _ _ ((dat1 V c).after 0 t) ((dat1 V c).after 1 t) _ p Set.univ _)
  iframe H0 H1 H2 HS
  iintro ⟨H0, H1, H2, HS⟩
  rw [← hp]
  isplitl [HS HΦ]; · iapply HΦ $$ HS
  isplitl [Ho]; · iexact Ho
  iframe H0 H1
  iapply (leavesO1 V c t d2) $$ H2

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq]
  show iprop(_ ∗ _ ∗ _) ⊢ _
  iintro ⟨HS, HR, Hg⟩
  iframe HR Hg
  iexists _; iexact HS

end Cert.KernelIdeal.Hand

end
-- ==== Proof.Reg2Body.lean ====
import proofs.«145575_j57698590654941_1_alg».proof.Proof.Reg2Defs
import proofs.«145575_j57698590654941_1_alg».proof.Proof.LibStore
import Idealize.ShloMosaic.Lib.QrPanel.Panel

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Idealize.ShloMosaic.QrPanel.Panel (zeros2)
open Cert.KernelIdeal Cert.KernelIdeal.Gen Cert.LibStore

variable {F : FTy → Type} [FloatOps F]

local notation "𝕄" => MT nD τ sig Unit (Elt F) ℕ (UR sig nD τ) ℕ

variable (V : (c : Dev nD) → (b : Ref sig .tc) → Buf (Elt F) (c.tc.loc b))

abbrev condReset2 (i : grid2.Coords) : Prop :=
  (Scalar.cmpi .ne (Scalar.extui (Scalar.cmpi .eq (BitVec.ofNat 32 (i 1).val) 0#32)) 0#32) = 1#1

theorem hcondReset2 : ∀ t : Fin cfg2.N, condReset2 (grid2.coords t) ↔ t.val % 4 = 0 := by decide +kernel

abbrev condFlush2 (i : grid2.Coords) : Prop := k2_cond2 i = 1#1

theorem run2 (c : Dev nD) (i : grid2.Coords)
    (arg2 : Memref sig .tc .vmem S1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (x0 : Vec F S1024x1024 .f32) (x1 o p : Vec F S1024x128 .f32) (E : Set ℕ) (K : PUnit → sProp 𝕄) :
    iprop(owns c.tc arg2 fullShare x0 ∗ owns c.tc arg3 fullShare x1
        ∗ owns c.tc arg4 fullShare o ∗ owns c.tc arg5 fullShare p
        ∗ (iprop(owns c.tc arg2 fullShare x0 ∗ owns c.tc arg3 fullShare x1
            ∗ owns c.tc arg4 fullShare
                (if condFlush2 i then k2_pay2 x0 x1 (if condReset2 i then k2_pay1 else p) else o)
            ∗ owns c.tc arg5 fullShare (k2_pay2 x0 x1 (if condReset2 i then k2_pay1 else p))) -∗ K ⟨⟩))
      ⊢ wp frame (wpE defs₀ Variants.none c none) E
          (cc2__adjmatvec_kernel i arg2 harg2 arg3 harg3 arg4 harg4 arg5 harg5) K := by
  simp only [cc2__adjmatvec_kernel_eq_skeleton]; unfold cc2__adjmatvec_kernel_skel
  unfold owns
  iintro ⟨⟨%f0, %h0, H0⟩, ⟨%f1, %h1, H1⟩, ⟨%fo, %ho, HO⟩, ⟨%fs, %hs, HS⟩, Hk⟩
  subst h0 h1 ho hs
  by_cases hc0 : condReset2 i <;> by_cases hc1 : condFlush2 i
  all_goals
    first | rw [if_pos hc0] | rw [if_neg hc0]
    first | rw [if_pos hc1] | rw [if_neg hc1]
    sl_exec (disch := first | exact hc0 | exact hc1)
    sl_step
    iapply Hk
    sl_unfold_words
    simp only [View.readAt_eq_ld, View.ld_unit_zero (S := S1024x1024) zeros2, View.ld_unit_zero (S := S1024x128) zeros2]
    repeat rw [readCov zeros2]
    isplitl [H0]; · iapply (reown c.tc rfl) $$ H0
    isplitl [H1]; · iapply (reown c.tc rfl) $$ H1
    isplitl [HO]; · first | iapply (reown c.tc (stored zeros2)) $$ HO | iapply (reown c.tc rfl) $$ HO
    iapply (reown c.tc (stored zeros2)) $$ HS

theorem PhiA2_eq (c : Dev nD) :
    (Pipeline.ΦA spec2 c : sProp 𝕄)
      = iprop(iprop(iprop(∃ d, owns c.tc scM2 fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; rfl

-- At every position the invariant lends the accumulator at what the point's value continues from.
theorem PhiOpen2 (c : Dev nD) (t : Fin cfg2.N) :
    (dat2 V c).Φ t.castSucc ⊢ ∃ p,
      ⌜accAt2 V c t.val t.isLt = k2_pay2 ((dat2 V c).after 0 t) ((dat2 V c).after 1 t)
        (if condReset2 (grid2.coords t) then k2_pay1 else p)⌝
      ∗ owns c.tc scM2 fullShare p
      ∗ (owns c.tc scM2 fullShare (accAt2 V c t.val t.isLt) -∗ (dat2 V c).Φ t.succ) := by
  obtain ⟨n, hn⟩ := t
  cases n with
  | zero =>
    show Pipeline.ΦA spec2 c ⊢ ∃ p, _ ∗ _ ∗ (_ -∗ iprop(_ ∗ _ ∗ _))
    rw [PhiA2_eq]
    iintro ⟨⟨⟨%p, HS⟩, HR⟩, Hg⟩
    iexists p
    isplitr
    · ipureintro; exact (congrArg (k2_pay2 _ _) (if_pos ((hcondReset2 ⟨0, hn⟩).mpr rfl))).symm
    iframe HS
    iintro HS
    iframe
  | succ n =>
    show iprop(_ ∗ _) ⊢ ∃ p, _ ∗ _ ∗ (_ -∗ iprop(_ ∗ _))
    iintro ⟨HS, HR⟩
    iexists accAt2 V c n (Nat.lt_of_succ_lt hn)
    isplitr
    · ipureintro
      exact (if_congr (hcondReset2 ⟨n + 1, hn⟩).symm rfl rfl).trans (apply_ite (k2_pay2 _ _) _ _ _).symm
    iframe HS
    iintro HS
    iframe

theorem beforeA2 (c : Dev nD) (t : Fin cfg2.N) (d) : (dat2 V c).before 0 t d = (dat2 V c).after 0 t :=
  ((dat2 V c).before_fetched 0 t (fetch2_0 t) d).trans rfl
theorem beforeB2 (c : Dev nD) (t : Fin cfg2.N) (d) : (dat2 V c).before 1 t d = (dat2 V c).after 1 t :=
  ((dat2 V c).before_fetched 1 t (fetch2_1 t) d).trans rfl

theorem liveA2 : ∀ t : Fin cfg2.N, cfg2.idle 0 (grid2.coords t) = false := by decide +kernel
theorem liveB2 : ∀ t : Fin cfg2.N, cfg2.idle 1 (grid2.coords t) = false := by decide +kernel
theorem liveO2 : ∀ t : Fin cfg2.N, condFlush2 (grid2.coords t) → cfg2.idle 2 (grid2.coords t) = false := by
  decide +kernel
theorem idleO2 : ∀ t : Fin cfg2.N, ¬condFlush2 (grid2.coords t) →
    cfg2.idle 2 (grid2.coords t) = true ∧ (cfg2.win 2).flush t = false := by decide +kernel

theorem leavesO2 (c : Dev nD) (t : Fin cfg2.N) (d) :
    owns c.tc (st2_2 t) fullShare
        (if condFlush2 (grid2.coords t) then accAt2 V c t.val t.isLt else (dat2 V c).before 2 t d)
      ⊢ (dat2 V c).leavesExact 2 t := by
  unfold Dat.leavesExact
  by_cases h : condFlush2 (grid2.coords t)
  · rw [if_pos h, liveO2 t h]; exact .rfl
  · rw [if_neg h, (idleO2 t h).1, (idleO2 t h).2]; iintro H; iexists d; iexact H

theorem body_obligation2 (c : Dev nD) : BodyObligation (dat2 (F := F) V c) (defs₀ (F := F)) Variants.none () Set.univ := fun t => by
  rw [bigSep_W2, bigSep_W2]
  show _ ⊢ wp frame _ Set.univ (bodyAt2 t) _
  simp only [beforeA2, beforeB2, liveA2 t, liveB2 t]
  iintro ⟨HΦ, Ho, ⟨%d0, H0⟩, ⟨%d1, H1⟩, ⟨%d2, H2⟩⟩
  icases (PhiOpen2 V c t) $$ HΦ with ⟨%p, %hp, HS, HΦ⟩
  iapply (run2 c (grid2.coords t) _ _ _ _ _ _ _ _ ((dat2 V c).after 0 t) ((dat2 V c).after 1 t) _ p Set.univ _)
  iframe H0 H1 H2 HS
  iintro ⟨H0, H1, H2, HS⟩
  rw [← hp]
  isplitl [HS HΦ]; · iapply HΦ $$ HS
  isplitl [Ho]; · iexact Ho
  iframe H0 H1
  iapply (leavesO2 V c t d2) $$ H2

theorem hin2 (c : Dev nD) : Pipeline.ΦA spec2 c ⊢ (dat2 V c).Φ 0 := .rfl

theorem hout2 (c : Dev nD) : (dat2 V c).Φ (Fin.last cfg2.N) ⊢ Pipeline.ΦA spec2 c := by
  rw [PhiA2_eq]
  show iprop(_ ∗ _ ∗ _) ⊢ _
  iintro ⟨HS, HR, Hg⟩
  iframe HR Hg
  iexists _; iexact HS

end Cert.KernelIdeal.Hand

end
-- ==== Proof.Reg3Body.lean ====
import proofs.«145575_j57698590654941_1_alg».proof.Proof.Reg3Defs
import proofs.«145575_j57698590654941_1_alg».proof.Proof.LibStore
import Idealize.ShloMosaic.Lib.Pipeline.Value
import Idealize.ShloMosaic.Lib.QrPanel.Panel

noncomputable section

namespace Cert.KernelIdeal.Hand

open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

-- The body only reads its inputs: what it finds in an input window is the block it leaves there.
theorem held3 {c : Dev nD} {t : Fin cfg3.N} (w : Fin cfg3.W) (hw : (cfg3.win w).isOut = false) (d) :
    (dat3 V c).before w t d = (dat3 V c).after w t := by
  fin_cases w
  iterate 5
    exact ((dat3 V c).before_in_eq_fetched _ hw (fun _ => rfl) (fun _ _ _ => rfl)
      (fun _ => by dsimp only [dat3]; rfl) t d).trans (by dsimp only [dat3]; rfl)
  cases hw

-- The one store covers the whole output block, so the block reads back as the payload of the input blocks.
theorem body_obligation3 (c : Dev nD) : BodyObligation (dat3 (F := F) V c) (defs₀ (F := F)) Variants.none () Set.univ := fun t => by
  rw [bigSep_W3, bigSep_W3]
  simp only [held3 V 0 rfl, held3 V 1 rfl, held3 V 2 rfl, held3 V 3 rfl, held3 V 4 rfl]
  dsimp only [dat3, Dat.owesAt, Dat.bound]
  show _ ⊢ wp _ _ _ (bodyAt3 t) _
  unfold bodyAt3 owns
  rw [cc3__catcombine_kernel_eq_skeleton]; unfold cc3__catcombine_kernel_skel
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩⟩
  sl_exec
  sl_step
  iframe
  isplitl [H0]; · iexists f0; iframe %hf0 H0
  isplitl [H1]; · iexists f1; iframe %hf1 H1
  isplitl [H2]; · iexists f2; iframe %hf2 H2
  isplitl [H3]; · iexists f3; iframe %hf3 H3
  isplitl [H4]; · iexists f4; iframe %hf4 H4
  iexists _; iframe
  ipureintro
  rw [LibStore.stored QrPanel.Panel.zeros2, ← hf0, ← hf1, ← hf2, ← hf3, ← hf4]
  congr 1 <;> exact View.ld_unit_zero QrPanel.Panel.zeros2 _ _

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.KernelIdeal.Hand

end
-- ==== Proof.Reg4Body.lean ====
import proofs.«145575_j57698590654941_1_alg».proof.Proof.Reg4Defs
import proofs.«145575_j57698590654941_1_alg».proof.Proof.LibStore
import Idealize.ShloMosaic.Lib.QrPanel.Panel

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen
open Cert.LibStore
open Idealize.ShloMosaic.QrPanel.Panel (zeros2)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond4_0 : ∀ t : Fin cfg4.N, cond4_0 (grid4.coords t) ↔ t.val = 0 := by decide +kernel

abbrev cond4_1 (i : grid4.Coords) : Prop := k4_cond2 i = 1#1

theorem idleAt4_5 : ∀ t : Fin cfg4.N, ¬cond4_1 (grid4.coords t) → idle4 5 (grid4.coords t) = true := by decide +kernel
theorem noFlush4_5 : ∀ t : Fin cfg4.N, ¬cond4_1 (grid4.coords t) → (win4 5).flush t = false := by decide +kernel
theorem liveAt4_5 : ∀ t : Fin cfg4.N, cond4_1 (grid4.coords t) → idle4 5 (grid4.coords t) = false := by decide +kernel

-- No grid point is both the first and the last.
theorem excl4 : ∀ i : grid4.Coords, cond4_0 i → ¬cond4_1 i := by decide +kernel

theorem run4 (c : Dev nD) {i : grid4.Coords}
    {arg2 : Memref sig .tc .vmem S512x512 .f32} {arg3 arg4 arg5 arg6 : Memref sig .tc .vmem S512x128 .f32} {arg7 arg8 : Memref sig .tc .vmem S1x1 .f32}
    {harg2 : arg2.IsWhole} {harg3 : arg3.IsWhole} {harg4 : arg4.IsWhole} {harg5 : arg5.IsWhole} {harg6 : arg6.IsWhole} {harg7 : arg7.IsWhole} {harg8 : arg8.IsWhole}
    (x0 : Vec F S512x512 .f32) (x1 x2 x3 x4 : Vec F S512x128 .f32) (x5 p a : Vec F S1x1 .f32)
    (ha : a = k4_pay1 (k4_pay5 x1 x2 x3 x4 x0) (k4_pay6 x1 x2 x3 x4 x0) (if cond4_0 i then k4_pay3 else p))
    {E : Set ℕ} {K : PUnit → sProp 𝕄} :
    iprop(owns c.tc arg2 fullShare x0 ∗ owns c.tc arg3 fullShare x1 ∗ owns c.tc arg4 fullShare x2
        ∗ owns c.tc arg5 fullShare x3 ∗ owns c.tc arg6 fullShare x4 ∗ owns c.tc arg7 fullShare x5
        ∗ owns c.tc arg8 fullShare p
        ∗ (iprop(owns c.tc arg2 fullShare x0 ∗ owns c.tc arg3 fullShare x1 ∗ owns c.tc arg4 fullShare x2
            ∗ owns c.tc arg5 fullShare x3 ∗ owns c.tc arg6 fullShare x4
            ∗ owns c.tc arg7 fullShare (if cond4_1 i then k4_pay2 a else x5) ∗ owns c.tc arg8 fullShare a) -∗ K ⟨⟩))
      ⊢ wp frame (wpE (defs₀ (F := F)) Variants.none c none) E (cc4_kernel i arg2 harg2 arg3 harg3 arg4 harg4 arg5 harg5 arg6 harg6 arg7 harg7 arg8 harg8) K := by
  subst ha
  simp only [cc4_kernel_eq_skeleton]; unfold cc4_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0 hf1 hf2 hf3 hf4 hf5 hfs
  by_cases hc0 : cond4_0 i <;> by_cases hc1 : cond4_1 i <;> (first | rw [if_pos hc0] | rw [if_neg hc0]) <;> (first | rw [if_pos hc1] | rw [if_neg hc1])
  · exact absurd hc1 (excl4 i hc0)
  all_goals
    sl_exec (disch := first | exact hc0 | exact hc1)
    sl_step
    iapply Hk
    isplitl [H0]; swap; isplitl [H1]; swap; isplitl [H2]; swap; isplitl [H3]; swap; isplitl [H4]; swap; isplitl [H5]
    all_goals iexists _; isplitr; swap
    all_goals first | iassumption | ipureintro
    all_goals first | rfl | (sl_unfold_run_names; rw [stored zeros2])
    all_goals simp only [View.readAt_eq_ld, View.ld_unit_zero (S := S512x512) zeros2, View.ld_unit_zero (S := S512x128) zeros2, View.ld_unit_zero (S := S1x1) zeros2, View.readCov_unit_zero (S := S1x1) _ zeros2]

theorem PhiA4_eq (c : Dev nD) :
    (Pipeline.ΦA spec4 c : sProp 𝕄)
      = iprop(iprop((∃ d, owns c.tc scM4 fullShare d) ∗ Pipeline.scopedRestBut spec4 c [cc4_scratch0]) ∗ (∃ r, prngReg c r)) := by
  unfold Pipeline.ΦA; rw [scopedRest4_split]; simp only [scM4, owns_whole]; rfl

-- Before the first point the accumulator holds anything; after point m it holds the running sum up to m.
theorem Phi4_open (c : Dev nD) (t : Fin (cfg4.N + 1)) :
    (dat4 V c).Φ t ⊢ iprop(∃ p, ⌜∀ m hm, t.val = m + 1 → p = accAt4 V c m hm⌝ ∗ owns c.tc scM4 fullShare p
      ∗ Pipeline.scopedRestBut spec4 c [cc4_scratch0] ∗ (∃ r, prngReg c r)) := by
  obtain ⟨n, h⟩ := t
  change PhiS4 V c n _ ⊢ _
  cases n with
  | zero =>
    unfold PhiS4; rw [PhiA4_eq]; iintro ⟨⟨⟨%d, HS⟩, HR⟩, Hg⟩; iexists d; iframe; ipureintro; intro m _ hm; cases hm
  | succ n =>
    unfold PhiS4; iintro ⟨HS, HR, Hg⟩; iexists accAt4 V c n (Nat.lt_of_succ_lt_succ h); iframe; ipureintro; intro m _ hm; cases hm; rfl

-- The running sum obeys its recursion: the tile's sum added to zero at the first point, to the previous sum otherwise.
theorem acc_step (c : Dev nD) (t : Fin cfg4.N) (p : Vec F S1x1 .f32) (hp : ∀ m hm, t.val = m + 1 → p = accAt4 V c m hm) :
    accAt4 V c t.val t.isLt = tile4 V c t (if cond4_0 (grid4.coords t) then k4_pay3 else p) := by
  obtain ⟨n, hn⟩ := t
  cases n with
  | zero => rw [if_pos ((hcond4_0 _).mpr rfl)]; rfl
  | succ n => rw [if_neg (fun h => Nat.succ_ne_zero n ((hcond4_0 _).mp h)), hp n _ rfl]; rfl

theorem before4 (c : Dev nD) (t : Fin cfg4.N) :
    (∀ d, (dat4 V c).before 0 t d = (dat4 V c).after 0 t) ∧ (∀ d, (dat4 V c).before 1 t d = (dat4 V c).after 1 t) ∧ (∀ d, (dat4 V c).before 2 t d = (dat4 V c).after 2 t)
      ∧ (∀ d, (dat4 V c).before 3 t d = (dat4 V c).after 3 t) ∧ (∀ d, (dat4 V c).before 4 t d = (dat4 V c).after 4 t) := by
  refine ⟨?_, ?_, ?_, ?_, ?_⟩ <;> exact (dat4 V c).before_in_eq_fetched _ rfl (fun _ => rfl) (fun _ _ _ => rfl) (fun _ => rfl) t

theorem body_obligation4 (c : Dev nD) : BodyObligation (dat4 (F := F) V c) (defs₀ (F := F)) Variants.none () Set.univ := fun t => by
  rw [bigSep_W4, bigSep_W4]
  obtain ⟨h0, h1, h2, h3, h4⟩ := before4 V c t
  simp only [h0, h1, h2, h3, h4]
  iintro ⟨HΦ, Ho, ⟨%d0, H0⟩, ⟨%d1, H1⟩, ⟨%d2, H2⟩, ⟨%d3, H3⟩, ⟨%d4, H4⟩, ⟨%d5, H5⟩⟩
  ihave ⟨%p, %hp, HS, HR, Hg⟩ := (Phi4_open V c _) $$ HΦ
  iapply run4 c ((dat4 V c).after 0 t) ((dat4 V c).after 1 t) ((dat4 V c).after 2 t) ((dat4 V c).after 3 t) ((dat4 V c).after 4 t) ((dat4 V c).before 5 t d5) p _ (acc_step V c t p hp)
  iframe H0 H1 H2 H3 H4 H5 HS
  iintro ⟨H0, H1, H2, H3, H4, H5, HS⟩
  rw [show (dat4 V c).Φ t.succ = PhiS4 V c (t.val + 1) t.isLt from rfl, show (dat4 V c).owesAt () t.succ = (dat4 V c).owesAt () t.castSucc from rfl]; simp only [PhiS4]
  iframe
  by_cases h1 : cond4_1 (grid4.coords t)
  · rw [if_pos h1, liveAt4_5 t h1]; iexact H5
  · rw [if_neg h1, idleAt4_5 t h1, noFlush4_5 t h1]; iexists _; iexact H5

theorem hin4 (c : Dev nD) : Pipeline.ΦA spec4 c ⊢ (dat4 V c).Φ 0 := Entails.refl _

theorem hout4 (c : Dev nD) : (dat4 V c).Φ (Fin.last cfg4.N) ⊢ Pipeline.ΦA spec4 c := by
  refine (Phi4_open V c _).trans ?_
  rw [PhiA4_eq]; iintro ⟨%p, -, HS, HR, Hg⟩; iframe HR Hg; iexists _; iexact HS

end Cert.KernelIdeal.Hand

end
-- ==== Proof.Reg4Seg.lean ====
import proofs.«145575_j57698590654941_1_alg».proof.Proof.Chain
import proofs.«145575_j57698590654941_1_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode
open Cert.KernelIdeal Cert.KernelIdeal.Gen

variable {F : FTy → Type} [FloatOps F]

local notation "𝕄" => MT nD τ sig Unit (Elt F) ℕ (UR sig nD τ) ℕ

variable (V₀ : (c : Dev nD) → (b : Ref sig .tc) → Buf (Elt F) ((c : Thread nD τ).loc b)) (c : Dev nD)
  (V V' : (b : Ref sig .tc) → Buf (Elt F) ((c : Thread nD τ).loc b))
  (Fa : (w : Fin cfg4.W) → Buf (Elt F) ((cfg4.win w).arr.view.loc (c : Thread nD τ)))

-- The two halves of the full share compose to it, so a points-to at the full share is the pair of points-tos at the halves.
theorem arrays4_iff (hF : ∀ w, Fa w = V (Pipeline.arrRef spec4 w)) :
    (Pipeline.arrBufs (Ix := Unit) (Name := ℕ) (U := UR sig nD τ) (Lvl := ℕ) spec4 c V : sProp 𝕄) ⊣⊢ (dat4 V₀ c).arrays Fa := by
  have hs (w : Fin cfg4.W) : (cfg4.win w).arr.view.set = Finset.univ := (arr_whole4 w).set_eq_univ
  have hl : (Pipeline.arrBufs (Ix := Unit) (Name := ℕ) (U := UR sig nD τ) (Lvl := ℕ) spec4 c V : sProp 𝕄)
      = iprop((((c : Thread nD τ).loc main_arg5) ↦{fullShare} V main_arg5) ∗ (((c : Thread nD τ).loc main_v2) ↦{fullShare} V main_v2)
          ∗ (((c : Thread nD τ).loc main_v4) ↦{fullShare} V main_v4) ∗ (((c : Thread nD τ).loc main_v14) ↦{fullShare} V main_v14)) :=
    bigSep_eq_bigSepL_of_eq [main_arg5, main_v2, main_v4, main_v14] (by decide) (by decide) _
  have hr : ((dat4 V₀ c).arrays Fa : sProp 𝕄)
      = iprop((((c : Thread nD τ).loc main_arg5) ↦{fullShare} V main_arg5)
          ∗ (((c : Thread nD τ).loc main_v2) ↦{fullShare.left} V main_v2) ∗ (((c : Thread nD τ).loc main_v2) ↦{fullShare.right} V main_v2)
          ∗ (((c : Thread nD τ).loc main_v4) ↦{fullShare.left} V main_v4) ∗ (((c : Thread nD τ).loc main_v4) ↦{fullShare.right} V main_v4)
          ∗ (((c : Thread nD τ).loc main_v14) ↦{fullShare} V main_v14)) := by
    unfold Pipeline.Dat.arrays
    rw [bigSep_W4, hs 0, hs 1, hs 3, hs 5, hF 0, hF 1, hF 2, hF 3, hF 4, hF 5]
    rfl
  rw [hl, hr]
  constructor
  · iintro ⟨H0, H2, H4, H5⟩
    ihave H2 := (pointsTo_share (PosShare.mem_left_op_right fullShare)).1 $$ H2
    ihave H4 := (pointsTo_share (PosShare.mem_left_op_right fullShare)).1 $$ H4
    icases H2 with ⟨H2l, H2r⟩
    icases H4 with ⟨H4l, H4r⟩
    iframe
  · iintro ⟨H0, H2l, H2r, H4l, H4r, H5⟩
    iframe H0 H5
    isplitl [H2l H2r] <;> iapply (pointsTo_share (PosShare.mem_left_op_right fullShare)).2 <;> iframe

theorem arrays_of_unscopedBufs4 (hA : ∀ w, (dat4 V₀ c).A w = V (Pipeline.arrRef spec4 w)) :
    (unscopedBufs c V : sProp 𝕄) ⊢ iprop((dat4 V₀ c).arrays ((dat4 V₀ c).arrAt · 0) ∗ Pipeline.unscopedRest spec4 c V) := by
  rw [Pipeline.unscopedBufs_split₀ cfgs 4 winFacts₀4.arr_unscoped c V]
  exact sep_mono (arrays4_iff V₀ c V _ hA).1 .rfl

theorem unscopedBufs_of_arrays4 (hF : ∀ w, Fa w = V' (Pipeline.arrRef spec4 w))
    (hrest : ∀ b, b ∉ Finset.univ.image (Pipeline.arrRef spec4) → V' b = V b) :
    iprop((dat4 V₀ c).arrays Fa ∗ Pipeline.unscopedRest spec4 c V) ⊢ (unscopedBufs c V' : sProp 𝕄) := by
  rw [Pipeline.unscopedBufs_split₀ cfgs 4 winFacts₀4.arr_unscoped c V']
  refine sep_mono (arrays4_iff V₀ c V' Fa hF).2 (.of_eq ?_)
  unfold Pipeline.unscopedRest
  exact bigSep_congr fun b hb => by rw [hrest b (Finset.mem_sdiff.mp hb).2]

end Cert.KernelIdeal.Hand

end
-- ==== Proof.Segs.lean ====
import proofs.«145575_j57698590654941_1_alg».proof.Proof.Chain
import proofs.«145575_j57698590654941_1_alg».proof.Proof.Reg0Body
import proofs.«145575_j57698590654941_1_alg».proof.Proof.Reg1Body
import proofs.«145575_j57698590654941_1_alg».proof.Proof.Reg2Body
import proofs.«145575_j57698590654941_1_alg».proof.Proof.Reg3Body
import proofs.«145575_j57698590654941_1_alg».proof.Proof.Reg4Body
import proofs.«145575_j57698590654941_1_alg».proof.Proof.Reg4Seg
import proofs.«145575_j57698590654941_1_alg».proof.Proof.Gen.KernelIdeal.Regions

noncomputable section

namespace Cert.KernelIdeal.Hand

open Idealize.ShloMosaic Idealize.ShloMosaic.TcCoe Idealize.ShloMosaic.Tactic
open Idealize.SL Idealize.SL.BI
open scoped Idealize.SL.BI
open Idealize.SL.BI.BIBase Idealize.SL.BI.Laws Idealize.SL.ProofMode
open Idealize.ShloMosaic.Rounds
open Idealize.ShloMosaic.Pipeline (BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

theorem W1_of (c : Dev nD) (r : Ref sig .tc) (h : r ≠ main_v0) :
    W1 m c (Proc.devRef .tc r) = W0 m c (Proc.devRef .tc r) :=
  Function.update_of_ne (StableHlo.devRef_ne_of_ne h) ..
theorem W2_of (c : Dev nD) (r : Ref sig .tc) (h : r ≠ main_v1) :
    W2 m c (Proc.devRef .tc r) = W1 m c (Proc.devRef .tc r) :=
  Function.update_of_ne (StableHlo.devRef_ne_of_ne h) ..
theorem W3_of (c : Dev nD) (r : Ref sig .tc) (h : r ∉ hostOps2_W) :
    W3 m c (Proc.devRef .tc r) = W2 m c (Proc.devRef .tc r) :=
  StableHlo.after_of_writes_sub hostOps2 _ hostOps2_writes h
theorem W4_of (c : Dev nD) (r : Ref sig .tc) (h : r ≠ main_v3) :
    W4 m c (Proc.devRef .tc r) = W3 m c (Proc.devRef .tc r) :=
  Function.update_of_ne (StableHlo.devRef_ne_of_ne h) ..
theorem W5_of (c : Dev nD) (r : Ref sig .tc) (h : r ∉ hostOps3_W) :
    W5 m c (Proc.devRef .tc r) = W4 m c (Proc.devRef .tc r) :=
  StableHlo.after_of_writes_sub hostOps3 _ hostOps3_writes h
theorem W6_of (c : Dev nD) (r : Ref sig .tc) (h : r ≠ main_v10) :
    W6 m c (Proc.devRef .tc r) = W5 m c (Proc.devRef .tc r) :=
  Function.update_of_ne (StableHlo.devRef_ne_of_ne h) ..
theorem W7_of (c : Dev nD) (r : Ref sig .tc) (h : r ∉ hostOps4_W) :
    W7 m c (Proc.devRef .tc r) = W6 m c (Proc.devRef .tc r) :=
  StableHlo.after_of_writes_sub hostOps4 _ hostOps4_writes h
theorem W8_of (c : Dev nD) (r : Ref sig .tc) (h : r ≠ main_v14) :
    W8 m c (Proc.devRef .tc r) = W7 m c (Proc.devRef .tc r) :=
  Function.update_of_ne (StableHlo.devRef_ne_of_ne h) ..
theorem W9_of (c : Dev nD) (r : Ref sig .tc) (h : r ∉ hostOps5_W) :
    W9 m c (Proc.devRef .tc r) = W8 m c (Proc.devRef .tc r) :=
  StableHlo.after_of_writes_sub hostOps5 _ hostOps5_writes h

-- Each of the nine items leaves a reference it does not write alone, so the nine equalities compose.
theorem W9_of_all (c : Dev nD) (r : Ref sig .tc) (h : r ≠ main_v0 ∧ r ≠ main_v1 ∧ r ∉ hostOps2_W ∧ r ≠ main_v3 ∧ r ∉ hostOps3_W
      ∧ r ≠ main_v10 ∧ r ∉ hostOps4_W ∧ r ≠ main_v14 ∧ r ∉ hostOps5_W) :
    W9 m c (Proc.devRef .tc r) = m ((c : Thread nD τ).loc r) := by
  obtain ⟨h1, h2, h3, h4, h5, h6, h7, h8, h9⟩ := h
  exact (W9_of m c r h9).trans <| (W8_of m c r h8).trans <| (W7_of m c r h7).trans <| (W6_of m c r h6).trans <|
    (W5_of m c r h5).trans <| (W4_of m c r h4).trans <| (W3_of m c r h3).trans <| (W2_of m c r h2).trans <| W1_of m c r h1

theorem W9_main_arg0 (c : Dev nD) : W9 m c (Proc.devRef .tc main_arg0) = m ((c : Thread nD τ).loc main_arg0) :=
  W9_of_all m c _ (by decide)
theorem W9_main_arg1 (c : Dev nD) : W9 m c (Proc.devRef .tc main_arg1) = m ((c : Thread nD τ).loc main_arg1) :=
  W9_of_all m c _ (by decide)
theorem W9_main_arg2 (c : Dev nD) : W9 m c (Proc.devRef .tc main_arg2) = m ((c : Thread nD τ).loc main_arg2) :=
  W9_of_all m c _ (by decide)
theorem W9_main_arg3 (c : Dev nD) : W9 m c (Proc.devRef .tc main_arg3) = m ((c : Thread nD τ).loc main_arg3) :=
  W9_of_all m c _ (by decide)
theorem W9_main_arg4 (c : Dev nD) : W9 m c (Proc.devRef .tc main_arg4) = m ((c : Thread nD τ).loc main_arg4) :=
  W9_of_all m c _ (by decide)
theorem W9_main_arg5 (c : Dev nD) : W9 m c (Proc.devRef .tc main_arg5) = m ((c : Thread nD τ).loc main_arg5) :=
  W9_of_all m c _ (by decide)

-- Every region changes one array of the valuation and leaves every other buffer as entered, so one record serves all five.
def mkReg (p : Fin 5) (W W' : Dev nD → Valuation τ sig (Elt F)) (wo : Fin (cfgs p).W)
    (win : Pipeline.WinFacts₀ (cfgs p).spec) (block_pos : ∀ w, 0 < ((cfgs p).spec w).block.numel)
    (stage_whole : ∀ (w : Fin (cfgs p).W) (s : Fin ((cfgs p).spec w).nbuf), (((cfgs p).spec w).stage s).IsWhole)
    (hbody : ∀ c, BodyObligation (pdats m p c) defs₀ 𝒱₀ () Set.univ)
    (howed : ∀ c t, (pdats m p c).owed t = 0) (hrec : ∀ c, (pdats m p c).recorded 0 = Set.univ)
    (hin : ∀ c, Pipeline.ΦA (cfgs p).spec c ⊢ (pdats m p c).Φ 0)
    (hout : ∀ c, (pdats m p c).Φ (Fin.last (cfgs p).N) ⊢ Pipeline.ΦA (cfgs p).spec c)
    (hA : ∀ c w, (pdats m p c).A w = Vr W c (Pipeline.arrRef (cfgs p).spec w))
    (ho : ∀ c, Vr W' c (Pipeline.arrRef (cfgs p).spec wo) = (pdats m p c).arrAt wo (cfgs p).N)
    (hne : ∀ c r, r ≠ Pipeline.arrRef (cfgs p).spec wo → Vr W' c r = Vr W c r)
    (hins : ∀ w, w ≠ wo → ((cfgs p).win w).isOut = false ∧ Pipeline.arrRef (cfgs p).spec w ≠ Pipeline.arrRef (cfgs p).spec wo)
    (hsplit : ∀ c V, (∀ w, (pdats m p c).A w = V (Pipeline.arrRef (cfgs p).spec w)) →
      (unscopedBufs c V : sProp 𝕄) ⊢ iprop((pdats m p c).arrays ((pdats m p c).arrAt · 0) ∗ Pipeline.unscopedRest (cfgs p).spec c V))
    (hjoin : ∀ c V V' Fa, (∀ w, Fa w = V' (Pipeline.arrRef (cfgs p).spec w)) →
      (∀ b, b ∉ Finset.univ.image (Pipeline.arrRef (cfgs p).spec) → V' b = V b) →
      iprop((pdats m p c).arrays Fa ∗ Pipeline.unscopedRest (cfgs p).spec c V) ⊢ (unscopedBufs c V' : sProp 𝕄)) :
    Pipeline.RegionSeg (pcfgs (F := F)) adm (pdats m) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (Vr W c)
  hentry c := by
    have hs := hsplit c (Vr W c) (hA c)
    rw [Pipeline.unscopedBufs_held] at hs
    unfold Pipeline.prefHeld Pipeline.Dat.owesAt Pipeline.owesWithin Pipeline.Dat.bound
    rw [show (Finset.univ : Finset (Fin 0)) = ∅ from rfl, BI.bigSep_empty, howed, hrec]
    iintro ⟨⟨Hb, Hp, %O, Ho⟩, -, -⟩
    ihave Hs := hs $$ Hb
    icases Hs with ⟨Ha, Hr⟩
    imodintro
    iframe Ha Hp Hr
    isplitr; · iempintro
    iexists O; iframe
    ipureintro; exact fun _ _ => Or.inl trivial
  hin c := by
    refine .trans ?_ (hin c)
    unfold Pipeline.ΦA
    iintro ⟨Hp, -, Hs⟩
    iframe
  hout c := by
    rw [Pipeline.ownSems0_none]
    refine (hout c).trans ?_
    unfold Pipeline.ΦA
    iintro ⟨Hs, Hp⟩
    iframe
    iempintro
  hexit c := by
    have hj := hjoin c (Vr W c) (Vr W' c) _ (fun w => by
        by_cases e : w = wo
        · rw [e, ho]
        · rw [Pipeline.Dat.arrAt_in _ w (hins w e).1, hA, hne c _ (hins w e).2])
      fun b hb => hne c b fun e => hb (Finset.mem_image.mpr ⟨wo, Finset.mem_univ _, e.symm⟩)
    rw [Pipeline.unscopedBufs_held] at hj
    unfold Pipeline.Dat.owesAt Pipeline.owesWithin
    rw [howed]
    iintro ⟨Ha, ⟨%O, -, Ho⟩, Hp, Hr⟩
    imodintro
    isplitl [Ha Hr]
    · iapply hj; iframe
    isplitl [Hp]; · iexact Hp
    iexists O; iexact Ho

def reg0 := mkReg m 0 (W0 m) (W1 m) 2 launch0.win.to₀ launch0.block_pos launch0.stage_whole (body_obligation0 _) (fun _ _ => rfl) (fun _ => rfl)
  (hin0 _) (hout0 _) (A_eq0 _) (fun _ => Function.update_self ..) (W1_of m) (by decide)
  (fun c => Pipeline.arrays_of_unscopedBufs _ _ _ launch0.win launch0.arr_whole c ((pdats m 0 c).share_full fun _ => rfl))
  (fun c => Pipeline.unscopedBufs_of_arrays _ _ launch0.win launch0.arr_whole c _ ((pdats m 0 c).share_full fun _ => rfl))

def reg1 := mkReg m 1 (W1 m) (W2 m) 2 launch1.win.to₀ launch1.block_pos launch1.stage_whole (body_obligation1 _) (fun _ _ => rfl) (fun _ => rfl)
  (hin1 _) (hout1 _) (A_eq1 _) (fun _ => Function.update_self ..) (W2_of m) (by decide)
  (fun c => Pipeline.arrays_of_unscopedBufs _ _ _ launch1.win launch1.arr_whole c ((pdats m 1 c).share_full fun _ => rfl))
  (fun c => Pipeline.unscopedBufs_of_arrays _ _ launch1.win launch1.arr_whole c _ ((pdats m 1 c).share_full fun _ => rfl))

def reg2 := mkReg m 2 (W3 m) (W4 m) 2 launch2.win.to₀ launch2.block_pos launch2.stage_whole (body_obligation2 _) (fun _ _ => rfl) (fun _ => rfl)
  (hin2 _) (hout2 _) (A_eq2 _) (fun _ => Function.update_self ..) (W4_of m) (by decide)
  (fun c => Pipeline.arrays_of_unscopedBufs _ _ _ launch2.win launch2.arr_whole c ((pdats m 2 c).share_full fun _ => rfl))
  (fun c => Pipeline.unscopedBufs_of_arrays _ _ launch2.win launch2.arr_whole c _ ((pdats m 2 c).share_full fun _ => rfl))

def reg3 := mkReg m 3 (W5 m) (W6 m) 5 launch3.win.to₀ launch3.block_pos launch3.stage_whole (body_obligation3 _) (fun _ _ => rfl) (fun _ => rfl)
  (hin3 _) (hout3 _) (A_eq3 _) (fun _ => Function.update_self ..) (W6_of m) (by decide)
  (fun c => Pipeline.arrays_of_unscopedBufs _ _ _ launch3.win launch3.arr_whole c ((pdats m 3 c).share_full fun _ => rfl))
  (fun c => Pipeline.unscopedBufs_of_arrays _ _ launch3.win launch3.arr_whole c _ ((pdats m 3 c).share_full fun _ => rfl))

def reg4 := mkReg m 4 (W7 m) (W8 m) 5 winFacts₀4 block_pos4 stage_whole4 (body_obligation4 _) (fun _ _ => rfl) (fun _ => rfl)
  (hin4 _) (hout4 _) (A_eq4 _) (fun _ => Function.update_self ..) (W8_of m) (by decide)
  (arrays_of_unscopedBufs4 _) (unscopedBufs_of_arrays4 _)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m c) ∗ ∃ r, prngReg c r)

abbrev segs : List (Pipeline.Seg (pcfgs (F := F)) adm (pdats m) () defs₀ 𝒱₀ L lv) :=
  [ .region (reg0 m),
    .region (reg1 m),
    .host (hseg hostOps2 hostOps2_sub hostOps2_fresh (W2 m)),
    .region (reg2 m),
    .host (hseg hostOps3 hostOps3_sub hostOps3_fresh (W4 m)),
    .region (reg3 m),
    .host (hseg hostOps4 hostOps4_sub hostOps4_fresh (W6 m)),
    .region (reg4 m),
    .host (hseg hostOps5 hostOps5_sub hostOps5_fresh (W8 m)) ]

theorem main_run (c : Dev nD) : main (F := F) c = Pipeline.Seg.run (segs m) := (main_chain c).trans (by chain_rfl)

theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Ho, -, Hp, -⟩, -⟩
      imodintro
      iframe Hh
      isplitl [Hp]; · iexists _; iexact Hp
      iexists ∅; iexact Ho)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      iframe)
    (hQ := fun s h => h)

theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c)⟩) (run_main m ρ)

end Cert.KernelIdeal.Hand

end
-- ==== Proof.Spec.lean ====
import Idealize.ShloMosaic.Lib.ValueIdx

noncomputable section

namespace Cert.Spec

open Idealize.ShloMosaic Idealize.ShloMosaic.ValueIdx

abbrev Mat (n m : ℕ) : Type := Fin n → Fin m → EReal

-- A rank-2 array read as a matrix, a rank-1 array as a row.
abbrev toM {n0 n1 : ℕ} (x : (⟨2, ![n0, n1]⟩ : Shape).Idx → EReal) : Mat n0 n1 := fun a b => x (ix2 a b)

abbrev toR {n : ℕ} (x : (⟨1, ![n]⟩ : Shape).Idx → EReal) : Fin n → EReal := fun a => x (ix1 a)

-- The constants 0, 1, −1, −100, 2⁻²⁴ and 2²⁴, each as its 32-bit word.
abbrev c0 : EReal := Ideal.ofBits .f32 0x00000000#32
abbrev c1 : EReal := Ideal.ofBits .f32 0x3F800000#32
abbrev cm1 : EReal := Ideal.ofBits .f32 0xBF800000#32
abbrev cm100 : EReal := Ideal.ofBits .f32 0xC2C80000#32

abbrev cscale : EReal := Ideal.ofBits .f32 0x33800000#32

abbrev cN : EReal := Ideal.ofBits .f32 0x4B800000#32

def mm {n k m : ℕ} (A : Mat n k) (B : Mat k m) : Mat n m := fun i j => ∑ l, A i l * B l j

-- max(feat · w, 0), entry by entry.
def supportM (feat : Mat 4096 512) (w : Mat 512 128) : Mat 4096 128 := fun i j => max (mm feat w i j) c0

-- First spelling: adj · sup + sup, and adj · (adj · sup) − sup.
def lowK (adj : Mat 4096 4096) (sup : Mat 4096 128) : Mat 4096 128 := fun i j => mm adj sup i j + sup i j

def midK (adj : Mat 4096 4096) (sup : Mat 4096 128) : Mat 4096 128 := fun i j => mm adj (mm adj sup) i j - sup i j

-- low · A + mid · B + row.
def catM (low mid : Mat 4096 128) (A B : Mat 128 128) (cb : Mat 1 128) : Mat 4096 128 :=
  fun i j => (mm low A i j + mm mid B i j) + cb 0 j

-- The combination over the two halves of catw's 256 columns, plus the two bias rows.
def outK (low mid : Mat 4096 128) (catw : Mat 128 256) (catb bias : Fin 128 → EReal) : Mat 4096 128 :=
  fun i j => (((∑ k : Fin 128, low i k * catw j (Fin.castAdd 128 k)) + (∑ k : Fin 128, mid i k * catw j (Fin.natAdd 128 k))) + catb j) + bias j

-- min(σ(low · lowᵀ) + σ(mid · midᵀ), 1).
def recM (low mid : Mat 4096 128) : Mat 4096 4096 :=
  fun i j => min (Ideal.logistic (∑ k, low i k * low j k) + Ideal.logistic (∑ k, mid i k * mid j k)) c1

-- One entry's cross-entropy term, each logarithm cut below at −100.
def termM (adj rec : Mat 4096 4096) : Mat 4096 4096 :=
  fun i j => adj i j * max (Ideal.log (rec i j)) cm100 + (c1 - adj i j) * max (Ideal.log1p (-(rec i j))) cm100

-- The sum over tile t = 8 a + b: rows 512 a …, columns 512 b ….
def tileSum (term : Mat 4096 4096) (t : Fin 64) : EReal :=
  ∑ r : Fin 512, ∑ q : Fin 512,
    term ⟨512 * (t.val / 8) + r.val, by have := t.isLt; have := r.isLt; omega⟩ ⟨512 * (t.val % 8) + q.val, by have := t.isLt; have := q.isLt; omega⟩

-- The negated sum over the 64 tiles, times 2⁻²⁴.
def lossK (term : Mat 4096 4096) : EReal := (0 - ∑ t : Fin 64, tileSum term t) * cscale

-- A square matrix with d added on its diagonal.
def addDiag {n : ℕ} (A : Mat n n) (d : EReal) : Mat n n := fun i j => A i j + if i = j then d else 0

-- Second spelling: (adj + I) · sup, and (adj · adj − I) · sup.
def lowR (adj : Mat 4096 4096) (sup : Mat 4096 128) : Mat 4096 128 := mm (addDiag adj c1) sup

def midR (adj : Mat 4096 4096) (sup : Mat 4096 128) : Mat 4096 128 := mm (addDiag (mm adj adj) cm1) sup

-- One product over the 256 concatenated columns, plus the two bias rows.
def outR (low mid : Mat 4096 128) (catw : Mat 128 256) (catb bias : Fin 128 → EReal) : Mat 4096 128 :=
  fun i j => ((∑ k : Fin 256, Fin.append (low i) (mid i) k * catw j k) + catb j) + bias j

-- The negated sum of all entries, divided by 2²⁴.
def lossR (term : Mat 4096 4096) : EReal := -(Ideal.div (∑ i : Fin 4096, ∑ j : Fin 4096, term i j) cN)

abbrev A2 (a b : ℕ) : Type := (⟨2, ![a, b]⟩ : Shape).Idx → EReal

abbrev A1 (a : ℕ) : Type := (⟨1, ![a]⟩ : Shape).Idx → EReal

abbrev A0 : Type := (⟨0, ![]⟩ : Shape).Idx → EReal

-- Every entry is a real number.
def Finite {s : Shape} (x : s.Idx → EReal) : Prop := ∀ i, ∃ r : ℝ, x i = (r : EReal)

def supF (feature : A2 4096 512) (weight : A2 512 128) : Mat 4096 128 := supportM (toM feature) (toM weight)

-- The two results in each spelling, as functions of the argument arrays.
def KoutF (feature : A2 4096 512) (weight : A2 512 128) (bias : A1 128) (catw : A2 128 256) (catb : A1 128) (adj : A2 4096 4096) : A2 4096 128 :=
  fun i => outK (lowK (toM adj) (supF feature weight)) (midK (toM adj) (supF feature weight)) (toM catw) (toR catb) (toR bias) (i 0) (i 1)

def KlossF (feature : A2 4096 512) (weight : A2 512 128) (adj : A2 4096 4096) : A0 :=
  fun _ => lossK (termM (toM adj) (recM (lowK (toM adj) (supF feature weight)) (midK (toM adj) (supF feature weight))))

def RoutF (feature : A2 4096 512) (weight : A2 512 128) (bias : A1 128) (catw : A2 128 256) (catb : A1 128) (adj : A2 4096 4096) : A2 4096 128 :=
  fun i => outR (lowR (toM adj) (supF feature weight)) (midR (toM adj) (supF feature weight)) (toM catw) (toR catb) (toR bias) (i 0) (i 1)

def RlossF (feature : A2 4096 512) (weight : A2 512 128) (adj : A2 4096 4096) : A0 :=
  fun _ => lossR (termM (toM adj) (recM (lowR (toM adj) (supF feature weight)) (midR (toM adj) (supF feature weight))))

end Cert.Spec

end
-- ==== Proof.LibDotPlain.lean ====
import Idealize.ShloMosaic.Lib.StackMember

namespace Cert.LibDot

open Idealize.ShloMosaic Idealize.ShloMosaic.ValueIdx

-- A product accumulated into zero is the product itself, whose entry (i, j) is the sum over k of l(i,k) r(k,j).
theorem mm_plain (M K N : Nat) {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (congrFun (matmul_zero_eq_dotGeneral _ none l r) _).trans (StackMember.dotGeneral_plain_apply none l r i j)

end Cert.LibDot
-- ==== Proof.Val0.lean ====
import proofs.«145575_j57698590654941_1_alg».proof.Proof.Reg0Defs
import proofs.«145575_j57698590654941_1_alg».proof.Proof.Spec
import proofs.«145575_j57698590654941_1_alg».proof.Proof.LibDotPlain

namespace Cert.KernelIdeal.Hand

open Idealize.ShloMosaic Idealize.ShloMosaic.TcCoe Idealize.ShloMosaic.ValueIdx
open Cert.KernelIdeal Cert.KernelIdeal.Gen Cert.Spec

variable (V : (c : Dev nD) → (b : Ref sig .tc) → Buf (Elt Ideal) ((c : Thread nD τ).loc b))

theorem sup_idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

-- Row r lies in row block r / 1024.
theorem sup_cover (i : S4096x128.Idx) : ∃ t : Fin cfg0.N, (cfg0.win 2).flush t = true ∧ i ∈ ((cfg0.win 2).blk t).view.set := by
  have hi0 : (i 0).val < 4096 := (i 0).isLt
  have hi1 : (i 1).val < 128 := (i 1).isLt
  obtain ⟨t, ht⟩ : ∃ t : Fin cfg0.N, t.val = (i 0).val / 1024 := ⟨⟨_, lt_of_lt_of_eq (by omega : (i 0).val / 1024 < 4) N_0.symm⟩, rfl⟩
  obtain ⟨-, -, -, -, e20, e21⟩ := sup_idx_facts t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

-- At point t the block is max(Σ, 0) over row block t of the first array and the whole second array: the summands of row 1024 t + p.
theorem val0 (c : Dev nD) :
    (dat0 V c).arrAt 2 cfg0.N = fun i => supportM (toM (n0 := 4096) (n1 := 512) (V c main_arg0)) (toM (n0 := 512) (n1 := 128) (V c main_arg1)) (i 0) (i 1) := by
  refine (dat0 V c).arrAt_eq_of_cover 2 _ (fun t _ => funext fun j => ?_) sup_cover
  obtain ⟨e00, e01, e10, e11, e20, e21⟩ := sup_idx_facts t
  rw [View.read_apply]
  show k0_pay1 _ _ j = _
  rw [eq_ix2 j]
  refine (congrArg (max · c0) (LibDot.mm_plain 1024 512 128 _ _ _ _)).trans (congrArg (max · c0) (Finset.sum_congr rfl fun l _ =>
    congrArg₂ (· * ·) (congrArg (V c main_arg0) (Shape.idx_ext₂ ?_ ?_)) (congrArg (V c main_arg1) (Shape.idx_ext₂ ?_ ?_))))
  · show win0_0.index t (0 : Fin 2) * 1024 + 1 * (j 0).val = win0_2.index t (0 : Fin 2) * 1024 + 1 * (j 0).val; omega
  · show win0_0.index t (1 : Fin 2) * 512 + 1 * l.val = l.val; omega
  · show win0_1.index t (0 : Fin 2) * 512 + 1 * l.val = l.val; omega
  · show win0_1.index t (1 : Fin 2) * 128 + 1 * (j 1).val = win0_2.index t (1 : Fin 2) * 128 + 1 * (j 1).val; omega

end Cert.KernelIdeal.Hand
-- ==== Proof.Algebra.lean ====
import proofs.«145575_j57698590654941_1_alg».proof.Proof.Spec

noncomputable section

namespace Cert.Spec

open Idealize.ShloMosaic Idealize.ShloMosaic.ValueIdx

-- The five 32-bit words are the numbers 0, 1, −1, 2²⁴ and 2⁻²⁴.
theorem c0_eq : c0 = 0 := by
  simp [c0, Ideal.ofBits, Ideal.ieee]

theorem c1_eq : c1 = ((1 : ℝ) : EReal) := by
  simp [c1, Ideal.ofBits, Ideal.ieee, -EReal.coe_mul]; norm_num

theorem cm1_eq : cm1 = ((-1 : ℝ) : EReal) := by
  simp [cm1, Ideal.ofBits, Ideal.ieee, -EReal.coe_mul]; norm_num

theorem cN_eq : cN = ((16777216 : ℝ) : EReal) := by
  simp [cN, Ideal.ofBits, Ideal.ieee, -EReal.coe_mul]; norm_num

theorem cscale_eq : cscale = ((1 / 16777216 : ℝ) : EReal) := by
  simp [cscale, Ideal.ofBits, Ideal.ieee, -EReal.coe_mul]; norm_num

-- The embedding of ℝ is additive, so it commutes with finite sums.
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

-- A real matrix embedded entry by entry.
def cM {n m : ℕ} (a : Fin n → Fin m → ℝ) : Mat n m := fun i j => (a i j : EReal)

-- Sums of products of reals are real: a product of real matrices is the real product.
theorem mm_cM {n k m : ℕ} (a : Fin n → Fin k → ℝ) (b : Fin k → Fin m → ℝ) :
    mm (cM a) (cM b) = cM (fun i j => ∑ l, a i l * b l j) := by
  funext i j
  simp only [mm, cM]
  rw [coe_sum]
  refine Finset.sum_congr rfl fun l _ => ?_
  rw [EReal.coe_mul]

theorem addDiag_cM {n : ℕ} (a : Fin n → Fin n → ℝ) (d : ℝ) :
    addDiag (cM a) (d : EReal) = cM (fun i j => a i j + if i = j then d else 0) := by
  funext i j
  simp only [addDiag, cM]
  by_cases h : i = j <;> simp [h, EReal.coe_add]

-- (A + I) S = A S + S,  (A A) S = A (A S),  (A A − I) S = A (A S) − S.
theorem real_low {n m : ℕ} (a : Fin n → Fin n → ℝ) (s : Fin n → Fin m → ℝ) (i : Fin n) (j : Fin m) :
    ∑ l, (a i l + if i = l then (1 : ℝ) else 0) * s l j = (∑ l, a i l * s l j) + s i j := by
  simp [add_mul, Finset.sum_add_distrib, ite_mul]

theorem real_assoc {n m : ℕ} (a : Fin n → Fin n → ℝ) (s : Fin n → Fin m → ℝ) (i : Fin n) (j : Fin m) :
    ∑ l, (∑ p, a i p * a p l) * s l j = ∑ p, a i p * ∑ l, a p l * s l j := by
  simp only [Finset.sum_mul, Finset.mul_sum]
  rw [Finset.sum_comm]
  refine Finset.sum_congr rfl fun p _ => Finset.sum_congr rfl fun l _ => ?_
  ring

theorem real_mid {n m : ℕ} (a : Fin n → Fin n → ℝ) (s : Fin n → Fin m → ℝ) (i : Fin n) (j : Fin m) :
    ∑ l, ((∑ p, a i p * a p l) + if i = l then (-1 : ℝ) else 0) * s l j
      = (∑ p, a i p * ∑ l, a p l * s l j) - s i j := by
  simp only [add_mul, Finset.sum_add_distrib, real_assoc]
  simp [ite_mul, sub_eq_add_neg]

theorem toM_real {n0 n1 : ℕ} (x : A2 n0 n1) (hx : Finite x) : ∃ a : Fin n0 → Fin n1 → ℝ, toM x = cM a := by
  choose f hf using hx
  exact ⟨fun i j => f (ix2 i j), by funext i j; exact hf _⟩

-- A maximum of a real and 0 is real.
theorem supF_real (feature : A2 4096 512) (weight : A2 512 128) (hf : Finite feature) (hw : Finite weight) :
    ∃ s : Fin 4096 → Fin 128 → ℝ, supF feature weight = cM s := by
  obtain ⟨f, hf'⟩ := toM_real feature hf
  obtain ⟨w, hw'⟩ := toM_real weight hw
  refine ⟨fun i j => max (∑ l, f i l * w l j) 0, ?_⟩
  funext i j
  rw [supF, supportM, hf', hw', mm_cM, c0_eq]
  simp only [cM]
  rw [coe_max, EReal.coe_zero]

theorem low_eq (a : Fin 4096 → Fin 4096 → ℝ) (s : Fin 4096 → Fin 128 → ℝ) :
    lowR (cM a) (cM s) = lowK (cM a) (cM s) := by
  funext i j
  rw [lowR, c1_eq, addDiag_cM, mm_cM, lowK, mm_cM]
  simp only [cM]
  rw [real_low, EReal.coe_add]

theorem mid_eq (a : Fin 4096 → Fin 4096 → ℝ) (s : Fin 4096 → Fin 128 → ℝ) :
    midR (cM a) (cM s) = midK (cM a) (cM s) := by
  funext i j
  rw [midR, cm1_eq, mm_cM, addDiag_cM, mm_cM, midK, mm_cM, mm_cM]
  simp only [cM]
  rw [real_mid, EReal.coe_sub]

-- A sum over 256 = 128 + 128 positions splits at 128.
theorem out_split (lo mi : Fin 128 → EReal) (w : Fin 256 → EReal) :
    (∑ k : Fin 256, Fin.append lo mi k * w k)
      = (∑ k : Fin 128, lo k * w (Fin.castAdd 128 k)) + ∑ k : Fin 128, mi k * w (Fin.natAdd 128 k) := by
  have h := Fin.sum_univ_add (fun k : Fin (128 + 128) => Fin.append lo mi k * w k)
  simp only [Fin.append_left, Fin.append_right] at h
  exact h

-- Position i of n b is b a + r for exactly one pair (a, r) with a < n and r < b.
theorem sum_blocks (n b : ℕ) (g : Fin (n * b) → EReal) :
    ∑ i, g i = ∑ a : Fin n, ∑ r : Fin b, g ⟨b * a.val + r.val, by rw [Nat.add_comm]; exact (finProdFinEquiv (a, r)).isLt⟩ := by
  rw [← Equiv.sum_comp finProdFinEquiv g, Fintype.sum_prod_type]
  exact Finset.sum_congr rfl fun a _ => Finset.sum_congr rfl fun r _ => congrArg g (Fin.ext (Nat.add_comm _ _))

-- The 64 tiles are the 8 × 8 blocks of 512 × 512 entries: tile 8 a + b holds rows 512 a … and columns 512 b ….
theorem sum_tiles (T : Mat 4096 4096) :
    ∑ t : Fin 64, tileSum T t = ∑ i : Fin 4096, ∑ j : Fin 4096, T i j := by
  rw [sum_blocks 8 8, sum_blocks 8 512 fun i => ∑ j, T i j]
  refine Finset.sum_congr rfl fun a _ => ?_
  simp only [tileSum]
  rw [Finset.sum_comm]
  refine Finset.sum_congr rfl fun r _ => ?_
  rw [sum_blocks 8 512 fun j => T _ j]
  refine Finset.sum_congr rfl fun b _ => Finset.sum_congr rfl fun q _ => ?_
  have ha := a.isLt
  have hb := b.isLt
  refine congrArg₂ T (Fin.ext ?_) (Fin.ext ?_)
  · show 512 * ((8 * a.val + b.val) / 8) + r.val = 512 * a.val + r.val
    omega
  · show 512 * ((8 * a.val + b.val) % 8) + q.val = 512 * b.val + q.val
    omega

-- Dividing by 2²⁴ is multiplying by 2⁻²⁴, and −x = 0 − x.
theorem loss_RK (T : Mat 4096 4096) : lossR T = lossK T := by
  rw [lossR, lossK, sum_tiles, cN_eq, cscale_eq, Ideal.div_coe (by norm_num), sub_eq_add_neg, zero_add,
    EReal.neg_mul]

-- Over real entries the two spellings are the same real matrices, term by term.
theorem out_eq (feature : A2 4096 512) (weight : A2 512 128) (bias : A1 128) (catw : A2 128 256) (catb : A1 128) (adj : A2 4096 4096)
    (hf : Finite feature) (hw : Finite weight) (hb : Finite bias) (hcw : Finite catw) (hcb : Finite catb) (ha : Finite adj) :
    RoutF feature weight bias catw catb adj = KoutF feature weight bias catw catb adj := by
  obtain ⟨a, ha'⟩ := toM_real adj ha
  obtain ⟨s, hs⟩ := supF_real feature weight hf hw
  funext i
  simp only [RoutF, KoutF]
  rw [hs, ha', low_eq, mid_eq]
  simp only [outR, outK]
  rw [out_split]

theorem loss_eq (feature : A2 4096 512) (weight : A2 512 128) (adj : A2 4096 4096)
    (hf : Finite feature) (hw : Finite weight) (ha : Finite adj) :
    RlossF feature weight adj = KlossF feature weight adj := by
  obtain ⟨a, ha'⟩ := toM_real adj ha
  obtain ⟨s, hs⟩ := supF_real feature weight hf hw
  funext i
  simp only [RlossF, KlossF]
  rw [hs, ha', low_eq, mid_eq, loss_RK]

end Cert.Spec

end
-- ==== Proof.Val1.lean ====
import proofs.«145575_j57698590654941_1_alg».proof.Proof.Reg1Defs
import proofs.«145575_j57698590654941_1_alg».proof.Proof.Spec
import proofs.«145575_j57698590654941_1_alg».proof.Proof.LibDotPlain
import proofs.«145575_j57698590654941_1_alg».proof.Proof.Algebra

noncomputable section

namespace Cert.KernelIdeal.Hand

open Idealize.ShloMosaic Idealize.ShloMosaic.TcCoe Idealize.ShloMosaic.ValueIdx
open Cert.KernelIdeal Cert.KernelIdeal.Gen Cert.Spec

theorem k1_pay1_apply (p : Fin 1024) (q : Fin 128) : k1_pay1 (F := Ideal) (ix2 p q) = 0 := by
  unfold k1_pay1
  rw [shapeCast_self]
  exact Ideal.ofBits_zero_f32

variable (V : (c : Dev nD) → (b : Ref sig .tc) → Buf (Elt Ideal) ((c : Thread nD τ).loc b))

abbrev k1_lhsM (c : Dev nD) : Mat 4096 4096 := toM (n0 := 4096) (n1 := 4096) (V c main_arg5)
abbrev k1_rhsM (c : Dev nD) : Mat 4096 128 := toM (n0 := 4096) (n1 := 128) (V c main_v0)

def k1_part (c : Dev nD) (r : Fin 4096) (q : Fin 128) (k : Fin 4) : EReal :=
  ∑ l : Fin 1024, k1_lhsM V c r ⟨1024 * k.val + l.val, by omega⟩ * k1_rhsM V c ⟨1024 * k.val + l.val, by omega⟩ q

theorem k1_idx_facts : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

-- Point t = 4 i + k adds stretch k of row block i: its blocks are (i, k) of the left array and (k, 0) of the right.
theorem k1_point_val (c : Dev nD) (t : Fin cfg1.N) (acc : Vec Ideal S1024x128 .f32) (p : Fin 1024) (q : Fin 128)
    (r : Fin 4096) (k : Fin 4) (hr : r.val = 1024 * (t.val / 4) + p.val) (hk : k.val = t.val % 4) :
    k1_pay2 (iblk1 V c 0 t) (iblk1 V c 1 t) acc (ix2 p q) = acc (ix2 p q) + k1_part V c r q k := by
  obtain ⟨e0, e1, e2, e3, -⟩ := k1_idx_facts t
  unfold k1_pay2
  rw [shapeCast_self, shapeCast_self]
  refine congrArg (acc (ix2 p q) + ·) ((LibDot.mm_plain 1024 1024 128 _ _ p q).trans (Finset.sum_congr rfl fun l _ =>
    congrArg₂ (· * ·) (congrArg (V c main_arg5) (Shape.idx_ext₂ ?_ ?_)) (congrArg (V c main_v0) (Shape.idx_ext₂ ?_ ?_))))
  · show win1_0.index t (0 : Fin 2) * 1024 + 1 * p.val = r.val; omega
  · show win1_0.index t (1 : Fin 2) * 1024 + 1 * l.val = 1024 * k.val + l.val; omega
  · show win1_1.index t (0 : Fin 2) * 1024 + 1 * l.val = 1024 * k.val + l.val; omega
  · show win1_1.index t (1 : Fin 2) * 128 + 1 * q.val = q.val; omega

theorem k1_acc_reset (c : Dev nD) (n : ℕ) (h : n < cfg1.N) (h0 : n % 4 = 0) :
    accAt1 V c n h = k1_pay2 (iblk1 V c 0 ⟨n, h⟩) (iblk1 V c 1 ⟨n, h⟩) (k1_pay1 (F := Ideal)) := by
  cases n with
  | zero => rfl
  | succ n => rw [accAt1]; exact if_pos h0

theorem k1_acc_step (c : Dev nD) (n : ℕ) (h : n + 1 < cfg1.N) (h0 : ¬(n + 1) % 4 = 0) :
    accAt1 V c (n + 1) h
      = k1_pay2 (iblk1 V c 0 ⟨n + 1, h⟩) (iblk1 V c 1 ⟨n + 1, h⟩) (accAt1 V c n (Nat.lt_of_succ_lt h)) := by
  rw [accAt1]; exact if_neg h0

-- Zero plus the four stretches of 1024 terms, added first to last, is the whole sum of 4096 terms.
theorem k1_row_val (c : Dev nD) (n : ℕ) (h : n < cfg1.N) (h3 : n % 4 = 3) (j : S1024x128.Idx) (r : Fin 4096)
    (hr : r.val = 1024 * (n / 4) + (j 0).val) :
    accAt1 V c n h j = mm (k1_lhsM V c) (k1_rhsM V c) r (j 1) := by
  obtain ⟨p, q, rfl⟩ : ∃ (p : Fin 1024) (q : Fin 128), j = ix2 p q := ⟨j 0, j 1, eq_ix2 j⟩
  obtain ⟨m, rfl⟩ : ∃ m, n = m + 3 := ⟨n - 3, by omega⟩
  have hr' : r.val = 1024 * ((m + 3) / 4) + p.val := hr
  have hN : cfg1.N = 16 := N_1
  rw [k1_acc_step V c (m + 2) h (by omega),
    k1_point_val V c ⟨m + 2 + 1, h⟩ _ p q r ⟨3, by decide⟩ (by dsimp only; omega) (by dsimp only; omega),
    k1_acc_step V c (m + 1) (by omega) (by omega),
    k1_point_val V c ⟨m + 1 + 1, by omega⟩ _ p q r ⟨2, by decide⟩ (by dsimp only; omega) (by dsimp only; omega),
    k1_acc_step V c m (by omega) (by omega),
    k1_point_val V c ⟨m + 1, by omega⟩ _ p q r ⟨1, by decide⟩ (by dsimp only; omega) (by dsimp only; omega),
    k1_acc_reset V c m (by omega) (by omega),
    k1_point_val V c ⟨m, by omega⟩ _ p q r ⟨0, by decide⟩ (by dsimp only; omega) (by dsimp only; omega),
    k1_pay1_apply, zero_add]
  symm
  unfold mm
  rw [sum_blocks 4 1024, Fin.sum_univ_four]
  rfl

-- Row r lies in row block r / 1024, whose last point is 4 (r / 1024) + 3.
theorem k1_cover (i : S4096x128.Idx) :
    ∃ t : Fin cfg1.N, (cfg1.win 2).flush t = true ∧ i ∈ ((cfg1.win 2).blk t).view.set := by
  have hi0 : (i 0).val < 4096 := (i 0).isLt
  have hi1 : (i 1).val < 128 := (i 1).isLt
  obtain ⟨t, ht⟩ : ∃ t : Fin cfg1.N, t.val = 4 * ((i 0).val / 1024) + 3 :=
    ⟨⟨_, lt_of_lt_of_eq (by omega : 4 * ((i 0).val / 1024) + 3 < 16) N_1.symm⟩, rfl⟩
  obtain ⟨-, -, -, -, e4, e5⟩ := k1_idx_facts t
  refine ⟨t, (flush1_2 t).mpr (by omega), ?_⟩
  show (i : (Pipeline.arrRef spec1 2).ty.shape.Idx) ∈ ((View.whole (Pipeline.arrRef spec1 2)).slice (win1_2.rect t)).set
  rw [View.set_slice_whole, Rect.mem_set_unit]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 128 ≤ (i 1).val ∧ (i 1).val < win1_2.index t (1 : Fin 2) * 128 + 128; omega

-- At the last point of a row of blocks the running sum is the whole product of that row block.
theorem val1 (c : Dev nD) :
    (dat1 V c).arrAt 2 cfg1.N = fun i => mm (toM (n0 := 4096) (n1 := 4096) (V c main_arg5)) (toM (n0 := 4096) (n1 := 128) (V c main_v0)) (i 0) (i 1) := by
  refine (dat1 V c).arrAt_eq_of_cover 2 _ (fun t hf => funext fun j => ?_) k1_cover
  obtain ⟨-, -, -, -, e4, e5⟩ := k1_idx_facts t
  rw [View.read_apply]
  refine (k1_row_val V c t.val t.isLt ((flush1_2 t).mp hf) j (((cfg1.win 2).blk t).view.emb j 0) ?_).trans
    (congrArg (mm (k1_lhsM V c) (k1_rhsM V c) _) (Fin.ext ?_))
  · show win1_2.index t (0 : Fin 2) * 1024 + 1 * (j 0).val = 1024 * (t.val / 4) + (j 0).val; omega
  · show (j 1).val = win1_2.index t (1 : Fin 2) * 128 + 1 * (j 1).val; omega

end Cert.KernelIdeal.Hand

end
-- ==== Proof.Val2.lean ====
import proofs.«145575_j57698590654941_1_alg».proof.Proof.Reg2Defs
import proofs.«145575_j57698590654941_1_alg».proof.Proof.Spec
import proofs.«145575_j57698590654941_1_alg».proof.Proof.LibDotPlain
import proofs.«145575_j57698590654941_1_alg».proof.Proof.Algebra

noncomputable section

namespace Cert.KernelIdeal.Hand

open Idealize.ShloMosaic Idealize.ShloMosaic.TcCoe Idealize.ShloMosaic.ValueIdx
open Cert.KernelIdeal Cert.KernelIdeal.Gen Cert.Spec

theorem k2_pay1_apply (p : Fin 1024) (q : Fin 128) : k2_pay1 (F := Ideal) (ix2 p q) = 0 := by
  unfold k2_pay1
  rw [shapeCast_self]
  exact Ideal.ofBits_zero_f32

variable (V : (c : Dev nD) → (b : Ref sig .tc) → Buf (Elt Ideal) ((c : Thread nD τ).loc b))

abbrev k2_lhsM (c : Dev nD) : Mat 4096 4096 := toM (n0 := 4096) (n1 := 4096) (V c main_arg5)
abbrev k2_rhsM (c : Dev nD) : Mat 4096 128 := toM (n0 := 4096) (n1 := 128) (V c main_v1)

def k2_part (c : Dev nD) (r : Fin 4096) (q : Fin 128) (k : Fin 4) : EReal :=
  ∑ l : Fin 1024, k2_lhsM V c r ⟨1024 * k.val + l.val, by omega⟩ * k2_rhsM V c ⟨1024 * k.val + l.val, by omega⟩ q

theorem k2_idx_facts : ∀ t : Fin cfg2.N, win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N, _)

-- Point t = 4 i + k adds stretch k of row block i: its blocks are (i, k) of the left array and (k, 0) of the right.
theorem k2_point_val (c : Dev nD) (t : Fin cfg2.N) (acc : Vec Ideal S1024x128 .f32) (p : Fin 1024) (q : Fin 128)
    (r : Fin 4096) (k : Fin 4) (hr : r.val = 1024 * (t.val / 4) + p.val) (hk : k.val = t.val % 4) :
    k2_pay2 (iblk2 V c 0 t) (iblk2 V c 1 t) acc (ix2 p q) = acc (ix2 p q) + k2_part V c r q k := by
  obtain ⟨e0, e1, e2, e3, -⟩ := k2_idx_facts t
  unfold k2_pay2
  rw [shapeCast_self, shapeCast_self]
  refine congrArg (acc (ix2 p q) + ·) ((LibDot.mm_plain 1024 1024 128 _ _ p q).trans (Finset.sum_congr rfl fun l _ =>
    congrArg₂ (· * ·) (congrArg (V c main_arg5) (Shape.idx_ext₂ ?_ ?_)) (congrArg (V c main_v1) (Shape.idx_ext₂ ?_ ?_))))
  · show win2_0.index t (0 : Fin 2) * 1024 + 1 * p.val = r.val; omega
  · show win2_0.index t (1 : Fin 2) * 1024 + 1 * l.val = 1024 * k.val + l.val; omega
  · show win2_1.index t (0 : Fin 2) * 1024 + 1 * l.val = 1024 * k.val + l.val; omega
  · show win2_1.index t (1 : Fin 2) * 128 + 1 * q.val = q.val; omega

theorem k2_acc_reset (c : Dev nD) (n : ℕ) (h : n < cfg2.N) (h0 : n % 4 = 0) :
    accAt2 V c n h = k2_pay2 (iblk2 V c 0 ⟨n, h⟩) (iblk2 V c 1 ⟨n, h⟩) (k2_pay1 (F := Ideal)) := by
  cases n with
  | zero => rfl
  | succ n => rw [accAt2]; exact if_pos h0

theorem k2_acc_step (c : Dev nD) (n : ℕ) (h : n + 1 < cfg2.N) (h0 : ¬(n + 1) % 4 = 0) :
    accAt2 V c (n + 1) h
      = k2_pay2 (iblk2 V c 0 ⟨n + 1, h⟩) (iblk2 V c 1 ⟨n + 1, h⟩) (accAt2 V c n (Nat.lt_of_succ_lt h)) := by
  rw [accAt2]; exact if_neg h0

-- Zero plus the four stretches of 1024 terms, added first to last, is the whole sum of 4096 terms.
theorem k2_row_val (c : Dev nD) (n : ℕ) (h : n < cfg2.N) (h3 : n % 4 = 3) (j : S1024x128.Idx) (r : Fin 4096)
    (hr : r.val = 1024 * (n / 4) + (j 0).val) :
    accAt2 V c n h j = mm (k2_lhsM V c) (k2_rhsM V c) r (j 1) := by
  obtain ⟨p, q, rfl⟩ : ∃ (p : Fin 1024) (q : Fin 128), j = ix2 p q := ⟨j 0, j 1, eq_ix2 j⟩
  obtain ⟨m, rfl⟩ : ∃ m, n = m + 3 := ⟨n - 3, by omega⟩
  have hr' : r.val = 1024 * ((m + 3) / 4) + p.val := hr
  have hN : cfg2.N = 16 := N_2
  rw [k2_acc_step V c (m + 2) h (by omega),
    k2_point_val V c ⟨m + 2 + 1, h⟩ _ p q r ⟨3, by decide⟩ (by dsimp only; omega) (by dsimp only; omega),
    k2_acc_step V c (m + 1) (by omega) (by omega),
    k2_point_val V c ⟨m + 1 + 1, by omega⟩ _ p q r ⟨2, by decide⟩ (by dsimp only; omega) (by dsimp only; omega),
    k2_acc_step V c m (by omega) (by omega),
    k2_point_val V c ⟨m + 1, by omega⟩ _ p q r ⟨1, by decide⟩ (by dsimp only; omega) (by dsimp only; omega),
    k2_acc_reset V c m (by omega) (by omega),
    k2_point_val V c ⟨m, by omega⟩ _ p q r ⟨0, by decide⟩ (by dsimp only; omega) (by dsimp only; omega),
    k2_pay1_apply, zero_add]
  symm
  unfold mm
  rw [sum_blocks 4 1024, Fin.sum_univ_four]
  rfl

-- Row r lies in row block r / 1024, whose last point is 4 (r / 1024) + 3.
theorem k2_cover (i : S4096x128.Idx) :
    ∃ t : Fin cfg2.N, (cfg2.win 2).flush t = true ∧ i ∈ ((cfg2.win 2).blk t).view.set := by
  have hi0 : (i 0).val < 4096 := (i 0).isLt
  have hi1 : (i 1).val < 128 := (i 1).isLt
  obtain ⟨t, ht⟩ : ∃ t : Fin cfg2.N, t.val = 4 * ((i 0).val / 1024) + 3 :=
    ⟨⟨_, lt_of_lt_of_eq (by omega : 4 * ((i 0).val / 1024) + 3 < 16) N_2.symm⟩, rfl⟩
  obtain ⟨-, -, -, -, e4, e5⟩ := k2_idx_facts t
  refine ⟨t, (flush2_2 t).mpr (by omega), ?_⟩
  show (i : (Pipeline.arrRef spec2 2).ty.shape.Idx) ∈ ((View.whole (Pipeline.arrRef spec2 2)).slice (win2_2.rect t)).set
  rw [View.set_slice_whole, Rect.mem_set_unit]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 128 ≤ (i 1).val ∧ (i 1).val < win2_2.index t (1 : Fin 2) * 128 + 128; omega

-- At the last point of a row of blocks the running sum is the whole product of that row block.
theorem val2 (c : Dev nD) :
    (dat2 V c).arrAt 2 cfg2.N = fun i => mm (toM (n0 := 4096) (n1 := 4096) (V c main_arg5)) (toM (n0 := 4096) (n1 := 128) (V c main_v1)) (i 0) (i 1) := by
  refine (dat2 V c).arrAt_eq_of_cover 2 _ (fun t hf => funext fun j => ?_) k2_cover
  obtain ⟨-, -, -, -, e4, e5⟩ := k2_idx_facts t
  rw [View.read_apply]
  refine (k2_row_val V c t.val t.isLt ((flush2_2 t).mp hf) j (((cfg2.win 2).blk t).view.emb j 0) ?_).trans
    (congrArg (mm (k2_lhsM V c) (k2_rhsM V c) _) (Fin.ext ?_))
  · show win2_2.index t (0 : Fin 2) * 1024 + 1 * (j 0).val = 1024 * (t.val / 4) + (j 0).val; omega
  · show (j 1).val = win2_2.index t (1 : Fin 2) * 128 + 1 * (j 1).val; omega

end Cert.KernelIdeal.Hand

end
-- ==== Proof.Val3.lean ====
import proofs.«145575_j57698590654941_1_alg».proof.Proof.Reg3Defs
import proofs.«145575_j57698590654941_1_alg».proof.Proof.Spec
import proofs.«145575_j57698590654941_1_alg».proof.Proof.LibDotPlain
import Idealize.ShloMosaic.Lib.ValueLayout

namespace Cert.KernelIdeal.Hand

open Idealize.ShloMosaic Idealize.ShloMosaic.TcCoe Idealize.ShloMosaic.ValueIdx
open Cert.KernelIdeal Cert.KernelIdeal.Gen Cert.Spec

variable (V : (c : Dev nD) → (b : Ref sig .tc) → Buf (Elt Ideal) ((c : Thread nD τ).loc b))

theorem cat_idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

-- Row r lies in row block r / 1024.
theorem cat_cover (i : S4096x128.Idx) : ∃ t : Fin cfg3.N, (cfg3.win 5).flush t = true ∧ i ∈ ((cfg3.win 5).blk t).view.set := by
  have hi0 : (i 0).val < 4096 := (i 0).isLt
  have hi1 : (i 1).val < 128 := (i 1).isLt
  obtain ⟨t, ht⟩ : ∃ t : Fin cfg3.N, t.val = (i 0).val / 1024 := ⟨⟨_, lt_of_lt_of_eq (by omega : (i 0).val / 1024 < 4) N_3.symm⟩, rfl⟩
  obtain ⟨-, -, -, -, -, -, -, -, -, -, e50, e51⟩ := cat_idx_facts t
  refine ⟨t, flush3_5 t, ?_⟩
  show i ∈ ((View.whole main_v10).slice (win3_5.rect t)).set
  rw [View.set_slice_whole, Rect.mem_set_unit]
  intro a
  match a with
  | ⟨0, _⟩ => show win3_5.index t (0 : Fin 2) * 1024 ≤ (i 0).val ∧ (i 0).val < win3_5.index t (0 : Fin 2) * 1024 + 1024; omega
  | ⟨1, _⟩ => show win3_5.index t (1 : Fin 2) * 128 ≤ (i 1).val ∧ (i 1).val < win3_5.index t (1 : Fin 2) * 128 + 128; omega

-- At point t the block is (Σ + Σ) + row entry over row blocks t of the first two arrays and the other three whole: the terms of row 1024 t + p.
theorem val3 (c : Dev nD) :
    (dat3 V c).arrAt 5 cfg3.N = fun i => catM (toM (n0 := 4096) (n1 := 128) (V c main_v2)) (toM (n0 := 4096) (n1 := 128) (V c main_v4))
      (toM (n0 := 128) (n1 := 128) (V c main_v6)) (toM (n0 := 128) (n1 := 128) (V c main_v8)) (toM (n0 := 1) (n1 := 128) (V c main_v9)) (i 0) (i 1) := by
  refine (dat3 V c).arrAt_eq_of_cover 5 _ (fun t _ => funext fun j => ?_) cat_cover
  obtain ⟨e00, e01, e10, e11, e20, e21, e30, e31, e40, e41, e50, e51⟩ := cat_idx_facts t
  rw [View.read_apply]
  show k3_pay1 _ _ _ _ _ j = _
  rw [eq_ix2 j]
  unfold k3_pay1
  simp only [shapeCast_self]
  refine (congrArg₂ (· + ·) (congrArg₂ (· + ·) (LibDot.mm_plain 1024 128 128 _ _ _ _) (LibDot.mm_plain 1024 128 128 _ _ _ _))
      (broadcastTo_1b_ab_apply _ _ _ _)).trans
    (congrArg₂ (· + ·) (congrArg₂ (· + ·)
      (Finset.sum_congr rfl fun l _ => congrArg₂ (· * ·) (congrArg (V c main_v2) (Shape.idx_ext₂ ?_ ?_)) (congrArg (V c main_v6) (Shape.idx_ext₂ ?_ ?_)))
      (Finset.sum_congr rfl fun l _ => congrArg₂ (· * ·) (congrArg (V c main_v4) (Shape.idx_ext₂ ?_ ?_)) (congrArg (V c main_v8) (Shape.idx_ext₂ ?_ ?_))))
      (congrArg (V c main_v9) (Shape.idx_ext₂ ?_ ?_)))
  · show win3_0.index t (0 : Fin 2) * 1024 + 1 * (j 0).val = win3_5.index t (0 : Fin 2) * 1024 + 1 * (j 0).val; omega
  · show win3_0.index t (1 : Fin 2) * 128 + 1 * l.val = l.val; omega
  · show win3_2.index t (0 : Fin 2) * 128 + 1 * l.val = l.val; omega
  · show win3_2.index t (1 : Fin 2) * 128 + 1 * (j 1).val = win3_5.index t (1 : Fin 2) * 128 + 1 * (j 1).val; omega
  · show win3_1.index t (0 : Fin 2) * 1024 + 1 * (j 0).val = win3_5.index t (0 : Fin 2) * 1024 + 1 * (j 0).val; omega
  · show win3_1.index t (1 : Fin 2) * 128 + 1 * l.val = l.val; omega
  · show win3_3.index t (0 : Fin 2) * 128 + 1 * l.val = l.val; omega
  · show win3_3.index t (1 : Fin 2) * 128 + 1 * (j 1).val = win3_5.index t (1 : Fin 2) * 128 + 1 * (j 1).val; omega
  · show win3_4.index t (0 : Fin 2) * 1 + 1 * 0 = 0; omega
  · show win3_4.index t (1 : Fin 2) * 128 + 1 * (j 1).val = win3_5.index t (1 : Fin 2) * 128 + 1 * (j 1).val; omega

end Cert.KernelIdeal.Hand
-- ==== Proof.Val4.lean ====
import proofs.«145575_j57698590654941_1_alg».proof.Proof.Reg4Defs
import proofs.«145575_j57698590654941_1_alg».proof.Proof.Spec
import Idealize.ShloMosaic.Lib.ValueLayout
import Idealize.ShloMosaic.PureOps.Ideal.Laws
import Idealize.ShloMosaic.Lib.ValueIdx
import Idealize.ShloMosaic.Lib.Pipeline.Value

noncomputable section

namespace Cert.KernelIdeal.Hand

open Idealize.ShloMosaic Idealize.ShloMosaic.TcCoe Idealize.ShloMosaic.ValueIdx
open Cert.KernelIdeal.Gen Cert.Spec

namespace V4

-- With the right operand contracted on its second axis, entry (i, j) of a product accumulated into zero is the sum over k of l(i,k) r(j,k).
theorem mm_transposedRhs (M K N : Nat) {φ₁ φ₂ : FTy} (l : FVec Ideal ⟨2, ![M, K]⟩ φ₁) (r : FVec Ideal ⟨2, ![N, K]⟩ φ₂)
    (i : Fin M) (j : Fin N) :
    matmul (DotDims.transposedRhs M K N) none l r (constant (F := Ideal) ⟨2, ![M, N]⟩ .f32 0x00000000#32) (ix2 i j)
      = ∑ k : Fin K, l (ix2 i k) * r (ix2 j k) := by
  show FloatOps.matmul _ none l r _ (ix2 i j) = _
  rw [Ideal.matmul_constant_zero_apply, ← Equiv.sum_comp (contrEquiv1 (DotDims.transposedRhs M K N) K rfl rfl).symm]
  refine Finset.sum_congr rfl fun c _ => congrArg₂ (· * ·) (congrArg l (Shape.idx_ext₂ ?_ ?_)) (congrArg r (Shape.idx_ext₂ ?_ ?_))
  · unfold DotDims.lhsIdx
    rw [dif_neg (show ¬(0 : Fin (⟨2, ![M, K]⟩ : Shape).rank) ∈ (DotDims.transposedRhs M K N).lhsBatch from List.not_mem_nil),
      dif_pos (show (0 : Fin (⟨2, ![M, K]⟩ : Shape).rank) ∈ (DotDims.transposedRhs M K N).lhsNonContracting from List.mem_singleton.mpr rfl)]
    rfl
  · exact ((DotDims.transposedRhs M K N).lhsIdx_val_of_single rfl _ _).trans (contrEquiv1_symm_val _ K rfl rfl c)
  · unfold DotDims.rhsIdx
    rw [dif_neg (show ¬(0 : Fin (⟨2, ![N, K]⟩ : Shape).rank) ∈ (DotDims.transposedRhs M K N).rhsBatch from List.not_mem_nil),
      dif_pos (show (0 : Fin (⟨2, ![N, K]⟩ : Shape).rank) ∈ (DotDims.transposedRhs M K N).rhsNonContracting from List.mem_singleton.mpr rfl)]
    rfl
  · exact ((DotDims.transposedRhs M K N).rhsIdx_val_of_single rfl _ _).trans (contrEquiv1_symm_val _ K rfl rfl c)

theorem pay5_apply (x1 x2 x3 x4 : Vec Ideal S512x128 .f32) (x0 : Vec Ideal S512x512 .f32) (r q : Fin 512) :
    k4_pay5 x1 x2 x3 x4 x0 (ix2 r q) = x0 (ix2 r q) * max (Ideal.log (k4_pay4 x1 x2 x3 x4 (ix2 r q))) cm100 := rfl

theorem pay6_apply (x1 x2 x3 x4 : Vec Ideal S512x128 .f32) (x0 : Vec Ideal S512x512 .f32) (r q : Fin 512) :
    k4_pay6 x1 x2 x3 x4 x0 (ix2 r q) = (c1 - x0 (ix2 r q)) * max (Ideal.log1p (-(k4_pay4 x1 x2 x3 x4 (ix2 r q)))) cm100 := by
  show (c1 - x0 (ix2 r q)) * max (Ideal.log1p (Ideal.ofBits .f32 0x00000000#32 - k4_pay4 x1 x2 x3 x4 (ix2 r q))) cm100 = _
  rw [Ideal.ofBits_zero_f32, zero_sub]

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

-- A sum over columns, then over rows, of the entrywise sum of two arrays, added to the one entry already there.
theorem pay1_apply (v33 v36 : FVec Ideal S512x512 .f32) (prev : Vec Ideal S1x1 .f32) :
    k4_pay1 v33 v36 prev (ix2 0 0) = prev (ix2 0 0) + ∑ r : Fin 512, ∑ q : Fin 512, (v33 (ix2 r q) + v36 (ix2 r q)) := by
  unfold k4_pay1
  simp only [shapeCast_self]
  refine congrArg (prev (ix2 0 0) + ·) ((shapeCast_a_1a_apply _ _ 0 0).trans
    ((Ideal.multiReduction_add_single _ _ _ _ _ _).trans (Finset.sum_congr rfl fun r _ => ?_)))
  refine (shapeCast_a_a1_apply _ _ r 0).trans
    ((Ideal.multiReduction_add_single _ _ _ _ _ _).trans (Finset.sum_congr rfl fun q _ => ?_))
  exact congrArg (addf v33 v36) (Shape.idx_ext₂ rfl rfl)

theorem pay2_apply (acc : Vec Ideal S1x1 .f32) (j : S1x1.Idx) : k4_pay2 acc j = (0 - acc (ix2 0 0)) * cscale := by
  obtain rfl : j = ix2 (0 : Fin 1) (0 : Fin 1) := Shape.idx_ext₂
    (by have h : (j 0).val < 1 := (j 0).isLt; show (j 0).val = 0; omega) (by have h : (j 1).val < 1 := (j 1).isLt; show (j 1).val = 0; omega)
  show (Ideal.ofBits .f32 0x00000000#32 - acc (ix2 0 0)) * cscale = _
  rw [Ideal.ofBits_zero_f32]

theorem pay3_apply : (k4_pay3 (F := Ideal)) (ix2 0 0) = 0 := by
  unfold k4_pay3
  rw [shapeCast_self]
  exact Ideal.ofBits_zero_f32

theorem blockIdx4 : ∀ t : Fin cfg4.N,
    win4_0.index t (0 : Fin 2) = t.val / 8 ∧ win4_0.index t (1 : Fin 2) = t.val % 8
    ∧ win4_1.index t (0 : Fin 2) = t.val / 8 ∧ win4_1.index t (1 : Fin 2) = 0
    ∧ win4_2.index t (0 : Fin 2) = t.val % 8 ∧ win4_2.index t (1 : Fin 2) = 0
    ∧ win4_3.index t (0 : Fin 2) = t.val / 8 ∧ win4_3.index t (1 : Fin 2) = 0
    ∧ win4_4.index t (0 : Fin 2) = t.val % 8 ∧ win4_4.index t (1 : Fin 2) = 0 :=
  (by decide +kernel : ∀ t : Fin grid4.N, _)

theorem lt64 (t : Fin cfg4.N) : t.val < 64 := lt_of_lt_of_eq t.isLt N_4

variable (V : (c : Dev nD) → (b : Ref sig .tc) → Buf (Elt Ideal) ((c : Thread nD τ).loc b))

abbrev lossTerm (c : Dev nD) : Mat 4096 4096 :=
  termM (toM (n0 := 4096) (n1 := 4096) (V c main_arg5))
    (recM (toM (n0 := 4096) (n1 := 128) (V c main_v2)) (toM (n0 := 4096) (n1 := 128) (V c main_v4)))

-- Point t = 8 a + b holds rows 512 a … of the first array and of the two factors, and rows 512 b … of the two factors again.
theorem tile4_apply (c : Dev nD) (t : Fin cfg4.N) (prev : Vec Ideal S1x1 .f32) :
    tile4 V c t prev (ix2 0 0) = prev (ix2 0 0) + tileSum (lossTerm V c) ⟨t.val, lt64 t⟩ := by
  obtain ⟨e00, e01, e10, e11, e20, e21, e30, e31, e40, e41⟩ := blockIdx4 t
  refine (pay1_apply _ _ prev).trans (congrArg (prev (ix2 0 0) + ·) (Finset.sum_congr rfl fun r _ => Finset.sum_congr rfl fun q _ => ?_))
  have hrec : k4_pay4 (iblk4 V c 1 t) (iblk4 V c 2 t) (iblk4 V c 3 t) (iblk4 V c 4 t) (ix2 r q)
      = recM (toM (n0 := 4096) (n1 := 128) (V c main_v2)) (toM (n0 := 4096) (n1 := 128) (V c main_v4))
        ⟨512 * (t.val / 8) + r.val, by have := lt64 t; omega⟩ ⟨512 * (t.val % 8) + q.val, by omega⟩ := by
    unfold k4_pay4
    simp only [shapeCast_self]
    refine congrArg (min · c1) (congrArg₂ (· + ·)
      (congrArg Ideal.logistic ((mm_transposedRhs 512 128 512 _ _ r q).trans (Finset.sum_congr rfl fun k _ =>
        congrArg₂ (· * ·) (congrArg (V c main_v2) (Shape.idx_ext₂ ?_ ?_)) (congrArg (V c main_v2) (Shape.idx_ext₂ ?_ ?_)))))
      (congrArg Ideal.logistic ((mm_transposedRhs 512 128 512 _ _ r q).trans (Finset.sum_congr rfl fun k _ =>
        congrArg₂ (· * ·) (congrArg (V c main_v4) (Shape.idx_ext₂ ?_ ?_)) (congrArg (V c main_v4) (Shape.idx_ext₂ ?_ ?_))))))
    · show win4_1.index t (0 : Fin 2) * 512 + 1 * r.val = 512 * (t.val / 8) + r.val; omega
    · show win4_1.index t (1 : Fin 2) * 128 + 1 * k.val = k.val; omega
    · show win4_2.index t (0 : Fin 2) * 512 + 1 * q.val = 512 * (t.val % 8) + q.val; omega
    · show win4_2.index t (1 : Fin 2) * 128 + 1 * k.val = k.val; omega
    · show win4_3.index t (0 : Fin 2) * 512 + 1 * r.val = 512 * (t.val / 8) + r.val; omega
    · show win4_3.index t (1 : Fin 2) * 128 + 1 * k.val = k.val; omega
    · show win4_4.index t (0 : Fin 2) * 512 + 1 * q.val = 512 * (t.val % 8) + q.val; omega
    · show win4_4.index t (1 : Fin 2) * 128 + 1 * k.val = k.val; omega
  have hadj : (iblk4 V c 0 t : Vec Ideal S512x512 .f32) (ix2 r q)
      = V c main_arg5 (ix2 (⟨512 * (t.val / 8) + r.val, by have := lt64 t; omega⟩ : Fin 4096) (⟨512 * (t.val % 8) + q.val, by omega⟩ : Fin 4096)) :=
    congrArg (V c main_arg5) (Shape.idx_ext₂
      (by show win4_0.index t (0 : Fin 2) * 512 + 1 * r.val = 512 * (t.val / 8) + r.val; omega)
      (by show win4_0.index t (1 : Fin 2) * 512 + 1 * q.val = 512 * (t.val % 8) + q.val; omega))
  rw [pay5_apply, pay6_apply, hrec, hadj]
  rfl

def tileAt (c : Dev nD) (t : ℕ) : EReal := if h : t < 64 then tileSum (lossTerm V c) ⟨t, h⟩ else 0

-- The running sum after point n is the sum of the first n + 1 tiles.
theorem accAt4_apply (c : Dev nD) : ∀ (n : ℕ) (h : n < cfg4.N),
    accAt4 V c n h (ix2 0 0) = ∑ t ∈ Finset.range (n + 1), tileAt V c t
  | 0, h => by
    rw [accAt4, tile4_apply, pay3_apply, zero_add, Finset.sum_range_one, tileAt, dif_pos (lt64 ⟨0, h⟩)]
  | n + 1, h => by
    rw [accAt4, tile4_apply, accAt4_apply c n, Finset.sum_range_succ _ (n + 1), tileAt, dif_pos (lt64 ⟨n + 1, h⟩)]

abbrev lastPt : Fin cfg4.N := ⟨63, by rw [show cfg4.N = 64 from N_4]; decide⟩

end V4

open V4

variable (V : (c : Dev nD) → (b : Ref sig .tc) → Buf (Elt Ideal) ((c : Thread nD τ).loc b))

theorem val4 (c : Dev nD) :
    (dat4 V c).arrAt 5 cfg4.N = fun _ => lossK (termM (toM (n0 := 4096) (n1 := 4096) (V c main_arg5))
      (recM (toM (n0 := 4096) (n1 := 128) (V c main_v2)) (toM (n0 := 4096) (n1 := 128) (V c main_v4)))) := by
  have hN : cfg4.N = 64 := N_4
  refine (dat4 V c).arrAt_eq_of_cover 5 _ (fun t hf => ?_) (fun i => ?_)
  · have h63 : t.val = 63 := by have := (flush4_5 t).mp hf; have := t.isLt; omega
    obtain rfl : t = lastPt := Fin.ext h63
    funext j
    rw [View.read_apply]
    refine (pay2_apply (accAt4 V c 63 _) _).trans ?_
    rw [accAt4_apply, Finset.sum_range]
    refine congrArg (fun s => (0 - s) * cscale) (Finset.sum_congr rfl fun t _ => ?_)
    rw [tileAt, dif_pos t.isLt]
  · refine ⟨lastPt, (flush4_5 lastPt).mpr rfl, ?_⟩
    show i ∈ ((View.whole main_v14).slice (win4_5.rect lastPt)).set
    rw [View.set_slice_whole, Rect.mem_set_unit]
    intro a
    have h0 : (i 0 : Nat) < 1 := (i 0).isLt
    have h1 : (i 1 : Nat) < 1 := (i 1).isLt
    match a with
    | ⟨0, _⟩ =>
      show win4_5.index lastPt 0 * win4_5.size 0 ≤ (i 0 : Nat) ∧ (i 0 : Nat) < win4_5.index lastPt 0 * win4_5.size 0 + win4_5.xsize (grid4.coords lastPt) 0
      rw [show win4_5.index lastPt 0 * win4_5.size 0 = 0 from by decide +kernel, show win4_5.xsize (grid4.coords lastPt) 0 = 1 from by decide +kernel]; omega
    | ⟨1, _⟩ =>
      show win4_5.index lastPt 1 * win4_5.size 1 ≤ (i 1 : Nat) ∧ (i 1 : Nat) < win4_5.index lastPt 1 * win4_5.size 1 + win4_5.xsize (grid4.coords lastPt) 1
      rw [show win4_5.index lastPt 1 * win4_5.size 1 = 0 from by decide +kernel, show win4_5.xsize (grid4.coords lastPt) 1 = 1 from by decide +kernel]; omega

end Cert.KernelIdeal.Hand

end
-- ==== Proof.KernelValue.lean ====
import proofs.«145575_j57698590654941_1_alg».proof.Proof.Segs
import proofs.«145575_j57698590654941_1_alg».proof.Proof.Val0
import proofs.«145575_j57698590654941_1_alg».proof.Proof.Val1
import proofs.«145575_j57698590654941_1_alg».proof.Proof.Val2
import proofs.«145575_j57698590654941_1_alg».proof.Proof.Val3
import proofs.«145575_j57698590654941_1_alg».proof.Proof.Val4
import proofs.«145575_j57698590654941_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Idealize.ShloMosaic Idealize.ShloMosaic.TcCoe Idealize.SL.Sem
open Cert.KernelIdeal Cert.KernelIdeal.Gen

open Cert.Spec

variable (m : (ℓ : Loc nD τ sig) → Buf (Elt Ideal) ℓ) (ρ : Dev nD → PrngReg)

namespace KV

variable (c : Dev nD)

abbrev ofM {a b : ℕ} (G : Mat a b) : A2 a b := fun i => G (i 0) (i 1)

theorem toM_mk {a b : ℕ} (G : Mat a b) : toM (n0 := a) (n1 := b) (ofM G) = G := rfl

abbrev adj : Mat 4096 4096 := toM (n0 := 4096) (n1 := 4096) (m ((c : Thread nD τ).loc main_arg5))
abbrev sup : Mat 4096 128 := supF (m ((c : Thread nD τ).loc main_arg0)) (m ((c : Thread nD τ).loc main_arg1))
abbrev low : Mat 4096 128 := lowK (adj m c) (sup m c)
abbrev mid : Mat 4096 128 := midK (adj m c) (sup m c)
abbrev catw : Mat 128 256 := toM (n0 := 128) (n1 := 256) (m ((c : Thread nD τ).loc main_arg3))

theorem W1_v0 : W1 m c (Proc.devRef .tc main_v0) = ofM (sup m c) :=
  (Function.update_self ..).trans (val0 (Vr (W0 m)) c)

theorem W2_v1 : W2 m c (Proc.devRef .tc main_v1) = ofM (mm (adj m c) (sup m c)) := by
  refine (Function.update_self ..).trans ((val1 (Vr (W1 m)) c).trans ?_)
  dsimp only [Vr]
  rw [W1_of m c main_arg5 (by decide), W1_v0, toM_mk]
  rfl

theorem W3_v2 : W3 m c (Proc.devRef .tc main_v2) = ofM (low m c) := by
  dsimp only [W3, hostOps2]
  after_results
  rw [W2_v1, W2_of m c main_v0 (by decide), W1_v0]
  rfl

theorem W4_v3 : W4 m c (Proc.devRef .tc main_v3) = ofM (mm (adj m c) (mm (adj m c) (sup m c))) := by
  refine (Function.update_self ..).trans ((val2 (Vr (W3 m)) c).trans ?_)
  dsimp only [Vr]
  rw [W3_of m c main_arg5 (by decide), W2_of m c main_arg5 (by decide), W1_of m c main_arg5 (by decide),
    W3_of m c main_v1 (by decide), W2_v1, toM_mk]
  rfl

theorem W5_v4 : W5 m c (Proc.devRef .tc main_v4) = ofM (mid m c) := by
  dsimp only [W5, hostOps3]
  after_results
  rw [W4_v3, W4_of m c main_v0 (by decide), W3_of m c main_v0 (by decide), W2_of m c main_v0 (by decide), W1_v0]
  rfl

-- The first four steps write only their own results.
theorem W4_arg (r : Ref sig .tc) (h1 : r ≠ main_v0 := by decide) (h2 : r ≠ main_v1 := by decide) (h3 : r ∉ hostOps2_W := by decide)
    (h4 : r ≠ main_v3 := by decide) :
    W4 m c (Proc.devRef .tc r) = m ((c : Thread nD τ).loc r) := by
  rw [W4_of m c r h4, W3_of m c r h3, W2_of m c r h2, W1_of m c r h1]

-- Transposing the left or the right 128 columns of the 128 × 256 matrix reads it at (j, k) or (j, 128 + k).
theorem W5_v68 : toM (n0 := 128) (n1 := 128) (W5 m c (Proc.devRef .tc main_v6)) = (fun k j => catw m c j (Fin.castAdd 128 k))
    ∧ toM (n0 := 128) (n1 := 128) (W5 m c (Proc.devRef .tc main_v8)) = fun k j => catw m c j (Fin.natAdd 128 k) := by
  constructor <;> funext k j <;> dsimp only [W5, hostOps3] <;> after_results <;>
    rw [W4_arg m c main_arg3] <;>
    refine (ValueIdx.transpose_ix2_apply _ _ k j).trans (ValueIdx.slice2_axis1_apply _ _ _ j k _ ?_)
  · rw [Fin.coe_castAdd, Nat.zero_add]
  · exact Fin.coe_natAdd 128 k

theorem W5_v9 : toM (n0 := 1) (n1 := 128) (W5 m c (Proc.devRef .tc main_v9)) = fun _ j => toR (n := 128) (m ((c : Thread nD τ).loc main_arg4)) j := by
  funext u j
  dsimp only [W5, hostOps3]
  after_results
  rw [W4_arg m c main_arg4]
  exact ValueIdx.shapeCast_a_1a_apply _ _ u j

theorem W6_v10 : W6 m c (Proc.devRef .tc main_v10) = ofM (catM (low m c) (mid m c) (fun k j => catw m c j (Fin.castAdd 128 k))
    (fun k j => catw m c j (Fin.natAdd 128 k)) fun _ j => toR (n := 128) (m ((c : Thread nD τ).loc main_arg4)) j) := by
  refine (Function.update_self ..).trans ((val3 (Vr (W5 m)) c).trans ?_)
  dsimp only [Vr]
  rw [W5_of m c main_v2 (by decide), W4_of m c main_v2 (by decide), W3_v2, W5_v4, (W5_v68 m c).1, (W5_v68 m c).2, W5_v9, toM_mk, toM_mk]
  rfl

-- A row broadcast over the rows of a matrix is read at the column index alone.
theorem bcast_row_apply (h1 : S1x128.BroadcastsInDim S4096x128 (![0, 1] : Fin 2 → Fin S4096x128.rank)) (h2 : S128.BroadcastsInDim S1x128 (![1] : Fin 1 → Fin S1x128.rank))
    (x : FVec Ideal S128 .f32) (p : Fin 4096) (q : Fin 128) :
    broadcastInDim S4096x128 ![0, 1] h1 (broadcastInDim S1x128 ![1] h2 x) (ValueIdx.ix2 p q) = x (ValueIdx.ix1 q) :=
  (broadcastInDim_apply ![0, 1] h1 _ (ValueIdx.ix2 p q) (ValueIdx.ix2 (0 : Fin 1) q) fun a => by fin_cases a <;> rfl).trans
    (broadcastInDim_apply ![1] h2 x (ValueIdx.ix2 (0 : Fin 1) q) (ValueIdx.ix1 q) fun a => by fin_cases a; rfl)

theorem W7_v13 : W7 m c (Proc.devRef .tc main_v13) = KoutF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨p, q, rfl⟩ : ∃ p q, i = ValueIdx.ix2 p q := ⟨i 0, i 1, ValueIdx.eq_ix2 i⟩
  dsimp only [W7, hostOps4]
  after_results
  rw [ValueIdx.addf_apply, bcast_row_apply, W6_v10, W6_of m c main_arg2 (by decide), W5_of m c main_arg2 (by decide),
    W4_arg m c main_arg2]
  rfl

theorem W8_v14 : W8 m c (Proc.devRef .tc main_v14) = (fun _ => lossK (termM (adj m c) (recM (low m c) (mid m c))) : A2 1 1) := by
  refine (Function.update_self ..).trans ((val4 (Vr (W7 m)) c).trans ?_)
  dsimp only [Vr]
  rw [W7_of m c main_arg5 (by decide), W6_of m c main_arg5 (by decide), W5_of m c main_arg5 (by decide),
    W4_arg m c main_arg5,
    W7_of m c main_v2 (by decide), W6_of m c main_v2 (by decide), W5_of m c main_v2 (by decide), W4_of m c main_v2 (by decide), W3_v2,
    W7_of m c main_v4 (by decide), W6_of m c main_v4 (by decide), W5_v4, toM_mk, toM_mk]
  rfl

end KV

theorem run_value : θ_run (defs (F := Ideal)) (onTc (τ := τ) (main (F := Ideal))) ⟨m, fun _ => 0, ρ⟩ (fun r => ∀ c : Dev nD,
      r.2.mem ((c.tc : Thread nD τ).loc main_v13) = KoutF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v15) = KlossF (m ((c.tc : Thread nD τ).loc main_arg0)) (m ((c.tc : Thread nD τ).loc main_arg1)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run (defs (F := Ideal)) _ _).mono (fun r h c => ?_) (run_main (F := Ideal) m ρ)
  have g := fun b hb => h c _ (mem_uc b hb)
  refine ⟨(g main_v13 (by decide)).trans ?_, (g main_v15 (by decide)).trans ?_,
    (g _ (by decide)).trans (W9_main_arg0 m c), (g _ (by decide)).trans (W9_main_arg1 m c), (g _ (by decide)).trans (W9_main_arg2 m c),
    (g _ (by decide)).trans (W9_main_arg3 m c), (g _ (by decide)).trans (W9_main_arg4 m c), (g _ (by decide)).trans (W9_main_arg5 m c)⟩
  · rw [W9_of m c main_v13 (by decide), W8_of m c main_v13 (by decide), KV.W7_v13]
  · dsimp only [W9, hostOps5]
    after_results
    rw [KV.W8_v14]
    rfl

end Cert.KernelIdeal.Hand

end
-- ==== Proof.LibScatterPt.lean ====
import Idealize.ShloMosaic.Lib.ValueIdx

namespace Cert.LibScatterPt

open Idealize.ShloMosaic Idealize.ShloMosaic.ValueIdx

-- An update lands at i exactly when start plus window coordinate is i's coordinate on every axis; being inside the operand follows.
theorem resultIdx?_eq_some_iff {s si u : Shape} {w : Nat} (d : ScatterDims s si u) (j : u.Idx) (idx : IVec si w) (i : s.Idx) :
    d.resultIdx? j idx = some i ↔ ∀ a, d.start j idx a + d.window j a = ((i a).val : Int) := by
  unfold ScatterDims.resultIdx?
  split
  · rename_i h
    refine ⟨fun e a => ?_, fun e => congrArg some (funext fun a => Fin.ext ?_)⟩
    · have h1 : (d.start j idx a + (d.window j a : Int)).toNat = (i a).val := congrArg Fin.val (congrFun (Option.some.inj e) a)
      have h2 := (h a).1
      omega
    · show (d.start j idx a + (d.window j a : Int)).toNat = (i a).val
      rw [e a]; rfl
  · rename_i h
    refine ⟨fun e => absurd e (by simp), fun e => absurd (fun a => ?_) h⟩
    have := (i a).isLt
    rw [e a]; omega

-- With no window axes the start is read off the two index columns and every window coordinate is zero.
theorem pt_resultIdx_iff {N M R w : Nat} (d : ScatterDims ⟨2, ![N, M]⟩ ⟨2, ![R, 2]⟩ ⟨1, ![R]⟩)
    (huw : d.updateWindowDims = []) (hiw : d.insertedWindowDims = [0, 1]) (hsd : d.scatterDimsToOperandDims = [0, 1])
    (hivd : d.indexVectorDim = 1)
    (idx : IVec ⟨2, ![R, 2]⟩ w) (j : (⟨1, ![R]⟩ : Shape).Idx) (n : Fin N) (s : Fin M) :
    d.resultIdx? j idx = some (ix2 n s)
      ↔ (idx (ix2 (j 0) 0)).toInt = (n.val : Int) ∧ (idx (ix2 (j 0) 1)).toInt = (s.val : Int) := by
  obtain ⟨uw, iw, sd, iv, wf⟩ := d
  simp only at huw hiw hsd hivd
  subst huw hiw hsd hivd
  rw [resultIdx?_eq_some_iff, Fin.forall_fin_two]
  refine and_congr (Eq.congr_left ?_) (Eq.congr_left ?_) <;> unfold ScatterDims.start
  · exact (congrArg (· + _) (dif_pos (List.mem_cons_self ..))).trans ((add_zero _).trans (congrArg (fun i => (idx i).toInt) (eq_ix2 _)))
  · exact (congrArg (· + _) (dif_pos (List.mem_cons_of_mem _ (List.mem_singleton.mpr rfl)))).trans ((add_zero _).trans (congrArg (fun i => (idx i).toInt) (eq_ix2 _)))

-- The updates landing at (n, s) are those whose two index columns hold n and s; a rank-1 update index is its one coordinate.
theorem scatterAdd_pt_apply {N M R w : Nat} (d : ScatterDims ⟨2, ![N, M]⟩ ⟨2, ![R, 2]⟩ ⟨1, ![R]⟩)
    (huw : d.updateWindowDims = []) (hiw : d.insertedWindowDims = [0, 1]) (hsd : d.scatterDimsToOperandDims = [0, 1])
    (hivd : d.indexVectorDim = 1)
    (x : FVec Ideal ⟨2, ![N, M]⟩ .f32) (idx : IVec ⟨2, ![R, 2]⟩ w) (upd : FVec Ideal ⟨1, ![R]⟩ .f32)
    (n : Fin N) (s : Fin M) :
    Host.scatterAdd (F := Ideal) d x idx upd (ix2 n s)
      = x (ix2 n s) + ∑ e ∈ Finset.univ.filter (fun e : Fin R =>
          (idx (ix2 e 0)).toInt = (n.val : Int) ∧ (idx (ix2 e 1)).toInt = (s.val : Int)), upd (ix1 e) := by
  have hiff := fun j => pt_resultIdx_iff d huw hiw hsd hivd idx j n s
  show Ideal.hostScatterAdd d x idx upd (ix2 n s) = _
  unfold Ideal.hostScatterAdd
  exact congrArg (x (ix2 n s) + ·) (Finset.sum_nbij' (fun j => j 0) ix1
    (fun j hj => Finset.mem_filter.mpr ⟨Finset.mem_univ _, (hiff j).mp (Finset.mem_filter.mp hj).2⟩)
    (fun e he => Finset.mem_filter.mpr ⟨Finset.mem_univ _, (hiff (ix1 e)).mpr (Finset.mem_filter.mp he).2⟩)
    (fun j _ => (eq_ix1 j).symm) (fun _ _ => rfl) (fun j _ => congrArg upd (eq_ix1 j)))

end Cert.LibScatterPt
-- ==== Proof.RefDiag.lean ====
import proofs.«145575_j57698590654941_1_alg».proof.Proof.Gen.ReferenceIdeal
import proofs.«145575_j57698590654941_1_alg».proof.Proof.LibScatterPt
import Idealize.ShloMosaic.Lib.ValueLayout
import Idealize.ShloMosaic.Lib.StableHlo.Predicate
import Idealize.ShloMosaic.Lib.ValueIdx
import Idealize.ShloMosaic.Lib.Pipeline.Value

noncomputable section

namespace Cert.ReferenceIdeal.RefValue

open Idealize.ShloMosaic Idealize.ShloMosaic.ValueIdx
open Cert.ReferenceIdeal.Gen Idealize.ShloMosaic.StableHlo.Predicate

-- The row numbers 0 … 4095: a negative one would have 4096 added, and none is negative.
abbrev rowNums : IVec S4096 32 :=
  select (cmpi .slt (iotaInDim S4096 32 0) (broadcastInDim S4096 ![] bcast_S_S4096 (constantI S_ 32 0#32)))
    (addi (iotaInDim S4096 32 0) (broadcastInDim S4096 ![] bcast_S_S4096 (constantI S_ 32 4096#32))) (iotaInDim S4096 32 0)

-- The index array whose row e is (e, e).
abbrev diagIdx : IVec S4096x2 32 :=
  concatenate S4096x2 1 [⟨S4096x1, broadcastInDim S4096x1 ![0] bcast_S4096_S4096x1_0 rowNums⟩,
    ⟨S4096x1, broadcastInDim S4096x1 ![0] bcast_S4096_S4096x1_0 rowNums⟩] concatenates_S4096x1_S4096x1_S4096x2_d1

-- e < 2³¹ is not negative as a signed word, so the selection keeps e.
theorem rowNums_apply (e : Fin 4096) : rowNums (Shape.Idx.ofFin e) = BitVec.ofNat 32 e.val := by
  have he := e.isLt
  have hlt : (BitVec.ofNat 32 e.val).toNat < 2 ^ 31 := by
    rw [BitVec.toNat_ofNat]; omega
  have hc : ¬ IntOp.cmpi .slt (BitVec.ofNat 32 e.val) 0#32 = 1#1 := by
    rw [slt_iff_toNat hlt (by decide)]
    simp
  show Scalar.select (IntOp.cmpi .slt (BitVec.ofNat 32 e.val) 0#32) _ (BitVec.ofNat 32 e.val) = _
  exact if_neg hc

-- Each of the two columns is the column of row numbers.
theorem diagIdx_0 (e : Fin 4096) : diagIdx (ix2 e (0 : Fin 2)) = BitVec.ofNat 32 e.val := by
  unfold diagIdx
  refine (concatenate_pair_apply_left (t := S4096x2) (s₁ := S4096x1) (s₂ := S4096x1) (1 : Fin 2) _ _
    concatenates_S4096x1_S4096x1_S4096x2_d1 (ix2 e (0 : Fin 2)) rfl (ixP e)
    (fun b => by match b with | ⟨0, _⟩ => rfl | ⟨1, _⟩ => rfl)).trans ?_
  rw [bcast_col1, rowNums_apply]

theorem diagIdx_1 (e : Fin 4096) : diagIdx (ix2 e (1 : Fin 2)) = BitVec.ofNat 32 e.val := by
  unfold diagIdx
  refine (concatenate_pair_apply_right (t := S4096x2) (s₁ := S4096x1) (s₂ := S4096x1) (1 : Fin 2) _ _
    concatenates_S4096x1_S4096x1_S4096x2_d1 (ix2 e (1 : Fin 2)) rfl rfl (ixP e)
    (fun b hb => by
      match b with
      | ⟨0, _⟩ => rfl
      | ⟨1, _⟩ => exact absurd rfl hb)
    rfl).trans ?_
  rw [bcast_col1, rowNums_apply]

-- Row e of the index array is (e, e), so the one update landing at (n, s) exists exactly when n = s, and it is row n's.
theorem diag_scatter (x : FVec Ideal S4096x4096 .f32) (w : BitVec 32) (n s : Fin 4096) :
    Host.scatterAdd (F := Ideal) scatter_S4096x4096_S4096x2_S4096_n_01_01_1 x diagIdx
        (broadcastInDim S4096 ![] bcast_S_S4096 (constant (F := Ideal) S_ .f32 w)) (ix2 n s)
      = x (ix2 n s) + if n = s then Ideal.ofBits .f32 w else 0 := by
  rw [Cert.LibScatterPt.scatterAdd_pt_apply scatter_S4096x4096_S4096x2_S4096_n_01_01_1 rfl rfl rfl rfl x diagIdx _ n s, Finset.sum_filter]
  have hp : ∀ e : Fin 4096, ((diagIdx (ix2 e 0)).toInt = (n.val : Int) ∧ (diagIdx (ix2 e 1)).toInt = (s.val : Int))
      ↔ (e = n ∧ n = s) := by
    intro e
    have he := e.isLt
    rw [diagIdx_0, diagIdx_1, toInt_ofNat_small e.val (by omega)]
    exact ⟨fun ⟨h1, h2⟩ => ⟨Fin.ext (by omega), Fin.ext (by omega)⟩, fun ⟨h1, h2⟩ => by rw [h1, ← h2]; exact ⟨rfl, rfl⟩⟩
  simp only [hp, ite_and]
  exact congrArg (x (ix2 n s) + ·) ((Finset.sum_ite_eq' Finset.univ n _).trans (if_pos (Finset.mem_univ n)))

end Cert.ReferenceIdeal.RefValue

end
-- ==== Proof.RefValue.lean ====
import proofs.«145575_j57698590654941_1_alg».proof.Proof.Gen.ReferenceIdeal
import proofs.«145575_j57698590654941_1_alg».proof.Proof.Gen.ReferenceIdeal.Run
import proofs.«145575_j57698590654941_1_alg».proof.Proof.Gen.ReferenceIdeal.Read
import proofs.«145575_j57698590654941_1_alg».proof.Proof.Spec
import proofs.«145575_j57698590654941_1_alg».proof.Proof.RefDiag
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.ReferenceIdeal.RefValue

open Idealize.ShloMosaic Idealize.ShloMosaic.ValueIdx
open Cert.ReferenceIdeal.Gen Cert.Spec Cert.ReferenceIdeal.Read

theorem concat_cols {α : Type} (lo mi : (⟨2, ![4096, 128]⟩ : Shape).Idx → α)
    (h : Shape.Concatenates [(⟨2, ![4096, 128]⟩ : Shape), ⟨2, ![4096, 128]⟩] ⟨2, ![4096, 256]⟩ 1)
    (i : Fin 4096) (k : Fin (128 + 128)) :
    concatenate (⟨2, ![4096, 256]⟩ : Shape) 1 [⟨⟨2, ![4096, 128]⟩, lo⟩, ⟨⟨2, ![4096, 128]⟩, mi⟩] h (ix2 i k)
      = Fin.append (fun q : Fin 128 => lo (ix2 i q)) (fun q : Fin 128 => mi (ix2 i q)) k := by
  induction k using Fin.addCases with
  | left q =>
    rw [Fin.append_left]
    exact concatenate_pair_apply_left 1 lo mi h (ix2 i (Fin.castAdd 128 q)) rfl (ix2 i q)
      (fun b => by match b with | ⟨0, _⟩ => rfl | ⟨1, _⟩ => rfl)
  | right q =>
    rw [Fin.append_right]
    refine concatenate_pair_apply_right 1 lo mi h (ix2 i (Fin.natAdd 128 q)) rfl rfl (ix2 i q) (fun b => ?_) ?_
    · match b with
      | ⟨0, _⟩ => exact fun _ => rfl
      | ⟨1, _⟩ => exact fun hne => absurd (Fin.ext rfl) hne
    · show q.val + 128 = 128 + q.val
      omega

theorem ofBits_one_f32 : Ideal.ofBits .f32 0x3F800000#32 = 1 := by
  simp [Ideal.ofBits, Ideal.ieee, -EReal.coe_mul]; norm_num

theorem logistic_spelled (x : EReal) :
    Ideal.div (Ideal.ofBits .f32 0x3F800000#32) (Ideal.ofBits .f32 0x3F800000#32 + Ideal.exp (-x)) = Ideal.logistic x := by
  rw [ofBits_one_f32]; rfl

theorem l1 (p : Fin 4096) (q : Fin 128) (k : Fin 512) : lidx_main_v1 (ix2 p q) k = ix2 p k := Shape.idx_ext₂ rfl rfl
theorem r1 (p : Fin 4096) (q : Fin 128) (k : Fin 512) : ridx_main_v1 (ix2 p q) k = ix2 k q := Shape.idx_ext₂ rfl rfl
theorem l18 (p : Fin 4096) (q : Fin 128) (k : Fin 4096) : lidx_main_v18 (ix2 p q) k = ix2 p k := Shape.idx_ext₂ rfl rfl
theorem r18 (p : Fin 4096) (q : Fin 128) (k : Fin 4096) : ridx_main_v18 (ix2 p q) k = ix2 k q := Shape.idx_ext₂ rfl rfl
theorem l19 (p q k : Fin 4096) : lidx_main_v19 (ix2 p q) k = ix2 p k := Shape.idx_ext₂ rfl rfl
theorem r19 (p q k : Fin 4096) : ridx_main_v19 (ix2 p q) k = ix2 k q := Shape.idx_ext₂ rfl rfl
theorem l35 (p : Fin 4096) (q : Fin 128) (k : Fin 4096) : lidx_main_v35 (ix2 p q) k = ix2 p k := Shape.idx_ext₂ rfl rfl
theorem r35 (p : Fin 4096) (q : Fin 128) (k : Fin 4096) : ridx_main_v35 (ix2 p q) k = ix2 k q := Shape.idx_ext₂ rfl rfl
theorem l38 (p : Fin 4096) (q : Fin 128) (k : Fin 256) : lidx_main_v38 (ix2 p q) k = ix2 p k := Shape.idx_ext₂ rfl rfl
theorem r38 (p : Fin 4096) (q : Fin 128) (k : Fin 256) : ridx_main_v38 (ix2 p q) k = ix2 k q := Shape.idx_ext₂ rfl rfl
theorem i37 (k : Fin 256) (q : Fin 128) : idx_main_v37 (ix2 k q) = ix2 q k := Shape.idx_ext₂ rfl rfl
theorem i40 (p : Fin 4096) (q : Fin 128) : idx_main_v39 (idx_main_v40 (ix2 p q)) = ix1 q := eq_ix1 _
theorem i77 (p : Fin 4096) (q : Fin 128) : idx_main_v76 (idx_main_v77 (ix2 p q)) = ix1 q := eq_ix1 _
theorem l43 (p q : Fin 4096) (k : Fin 128) : lidx_main_v43 (ix2 p q) k = ix2 p k := Shape.idx_ext₂ rfl rfl
theorem r43 (p q : Fin 4096) (k : Fin 128) : ridx_main_v43 (ix2 p q) k = ix2 k q := Shape.idx_ext₂ rfl rfl
theorem i42 (k : Fin 128) (q : Fin 4096) : idx_main_v42 (ix2 k q) = ix2 q k := Shape.idx_ext₂ rfl rfl
theorem l51 (p q : Fin 4096) (k : Fin 128) : lidx_main_v51 (ix2 p q) k = ix2 p k := Shape.idx_ext₂ rfl rfl
theorem r51 (p q : Fin 4096) (k : Fin 128) : ridx_main_v51 (ix2 p q) k = ix2 k q := Shape.idx_ext₂ rfl rfl
theorem i50 (k : Fin 128) (q : Fin 4096) : idx_main_v50 (ix2 k q) = ix2 q k := Shape.idx_ext₂ rfl rfl

variable (x0 : (⟨S4096x512, .f32⟩ : BufTy).Contents (Elt Ideal)) (x1 : (⟨S512x128, .f32⟩ : BufTy).Contents (Elt Ideal))
  (x2 : (⟨S128, .f32⟩ : BufTy).Contents (Elt Ideal)) (x3 : (⟨S128x256, .f32⟩ : BufTy).Contents (Elt Ideal))
  (x4 : (⟨S128, .f32⟩ : BufTy).Contents (Elt Ideal)) (x5 : (⟨S4096x4096, .f32⟩ : BufTy).Contents (Elt Ideal))

theorem sup_at (p : Fin 4096) (q : Fin 128) : val_main_v2 (F := Ideal) x0 x1 (ix2 p q) = supF x0 x1 p q := by
  rw [val_main_v2_apply, val_main_v1_apply, val_main_call0_v0_apply, val_main_call0_cst_apply]
  simp only [l1, r1]
  rfl

theorem adjI_at (n s : Fin 4096) : val_main_v17 (F := Ideal) x5 (ix2 n s) = addDiag (toM x5) c1 n s :=
  diag_scatter x5 0x3F800000#32 n s

theorem low_at (p : Fin 4096) (q : Fin 128) :
    val_main_v18 (F := Ideal) x0 x1 x5 (ix2 p q) = lowR (toM x5) (supF x0 x1) p q := by
  rw [val_main_v18_apply]
  simp only [l18, r18, adjI_at, sup_at]
  rfl

theorem sq_at (p q : Fin 4096) : val_main_v19 (F := Ideal) x5 (ix2 p q) = mm (toM x5) (toM x5) p q := by
  rw [val_main_v19_apply]
  simp only [l19, r19]
  rfl

theorem sqI_at (n s : Fin 4096) :
    val_main_v34 (F := Ideal) x5 (ix2 n s) = addDiag (mm (toM x5) (toM x5)) cm1 n s :=
  (diag_scatter (val_main_v19 (F := Ideal) x5) 0xBF800000#32 n s).trans (by rw [sq_at]; rfl)

theorem mid_at (p : Fin 4096) (q : Fin 128) :
    val_main_v35 (F := Ideal) x0 x1 x5 (ix2 p q) = midR (toM x5) (supF x0 x1) p q := by
  rw [val_main_v35_apply]
  simp only [l35, r35, sqI_at, sup_at]
  rfl

theorem cat_at (p : Fin 4096) (k : Fin 256) :
    val_main_v36 (F := Ideal) x0 x1 x5 (ix2 p k)
      = Fin.append (lowR (toM x5) (supF x0 x1) p) (midR (toM x5) (supF x0 x1) p) k := by
  have h := concat_cols (val_main_v18 (F := Ideal) x0 x1 x5) (val_main_v35 (F := Ideal) x0 x1 x5)
    concatenates_S4096x128_S4096x128_S4096x256_d1 p k
  simp only [low_at, mid_at] at h
  exact h

theorem out_eq : val_main_v78 (F := Ideal) x0 x1 x2 x3 x4 x5 = RoutF x0 x1 x2 x3 x4 x5 := by
  funext i
  obtain ⟨p, q, rfl⟩ : ∃ (p : Fin 4096) (q : Fin 128), i = ix2 p q := ⟨i 0, i 1, eq_ix2 i⟩
  rw [val_main_v78_apply, val_main_v41_apply, val_main_v38_apply, val_main_v40_apply, val_main_v39_apply,
    val_main_v77_apply, val_main_v76_apply]
  simp only [l38, r38, val_main_v37_apply, i37, i40, i77, cat_at]
  rfl

theorem rec_at (p q : Fin 4096) :
    val_main_v60 (F := Ideal) x0 x1 x5 (ix2 p q)
      = recM (lowR (toM x5) (supF x0 x1)) (midR (toM x5) (supF x0 x1)) p q := by
  rw [val_main_v60_apply, val_main_v58_apply, val_main_v49_apply, val_main_v57_apply, val_main_v59_apply,
    val_main_cst_12_apply, val_main_v48_apply, val_main_cst_9_apply, val_main_v47_apply, val_main_v46_apply,
    val_main_cst_8_apply, val_main_v45_apply, val_main_v44_apply, val_main_v43_apply, val_main_v56_apply,
    val_main_cst_11_apply, val_main_v55_apply, val_main_v54_apply, val_main_cst_10_apply, val_main_v53_apply,
    val_main_v52_apply, val_main_v51_apply]
  simp only [l43, r43, l51, r51, val_main_v42_apply, val_main_v50_apply, i42, i50, low_at, mid_at,
    Ideal.minimumf_def, Ideal.addf_def, Ideal.hostDivf_def, Ideal.hostUnary_exp_def, Ideal.hostNegf_def,
    Ideal.negf_def, Ideal.ofBits_def, logistic_spelled]
  rfl

theorem term_at (p q : Fin 4096) :
    val_main_v72 (F := Ideal) x0 x1 x5 (ix2 p q)
      = termM (toM x5) (recM (lowR (toM x5) (supF x0 x1)) (midR (toM x5) (supF x0 x1))) p q := by
  rw [val_main_v72_apply, val_main_v68_apply, val_main_v71_apply, val_main_v63_apply, val_main_v61_apply,
    val_main_v62_apply, val_main_cst_13_apply, val_main_v70_apply, val_main_v69_apply, val_main_cst_15_apply,
    val_main_v67_apply, val_main_v65_apply, val_main_v64_apply, val_main_v66_apply, val_main_cst_14_apply]
  simp only [rec_at, Ideal.addf_def, Ideal.mulf_def, Ideal.subf_def, Ideal.maximumf_def, Ideal.hostUnary_log_def,
    Ideal.hostUnary_log1p_def, Ideal.hostNegf_def, Ideal.negf_def, Ideal.ofBits_def]
  rfl

theorem loss_eq : val_main_v75 (F := Ideal) x0 x1 x5 = RlossF x0 x1 x5 := by
  funext i
  rw [val_main_v75_apply, val_main_v74_apply, val_main_v73_apply, val_main_cst_16_apply, val_main_cst_17_apply, sum_idx2]
  simp only [term_at, Ideal.hostNegf_def, Ideal.negf_def, Ideal.hostDivf_def, Ideal.ofBits_def, Ideal.ofBits_zero_f32,
    zero_add]
  rfl

theorem ref_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v78) = RoutF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v75) = RlossF (m ((c.tc : Thread nD τ).loc main_arg0)) (m ((c.tc : Thread nD τ).loc main_arg1)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c =>
    ⟨(h c).1.trans ((val_main_v78_eq (F := Ideal) _ _ _ _ _ _).trans (out_eq _ _ _ _ _ _)),
      (h c).2.1.trans ((val_main_v75_eq (F := Ideal) m c).trans (loss_eq _ _ _)),
      (h c).2.2⟩)
    (Cert.ReferenceIdeal.Value.run (F := Ideal) m ρ)

end Cert.ReferenceIdeal.RefValue

end
-- ==== Proof.PreFinite.lean ====
import proofs.«145575_j57698590654941_1_alg».proof.Pre_finite_inputs
import proofs.«145575_j57698590654941_1_alg».proof.Proof.Gen.Pre_finite_inputs
import proofs.«145575_j57698590654941_1_alg».proof.Proof.Spec
import Idealize.ShloMosaic.Lib.ReduceAll

noncomputable section

namespace Cert.Spec

open Idealize.ShloMosaic Idealize.ShloMosaic.ValueIdx

-- |x| < +∞ fails at ±∞, where |x| = +∞; so x is real.
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨r, rfl⟩

-- A conjunction over all entries holds only if each entry's test does.
theorem finite_of_all {s : Shape} {axes : List (Fin s.rank)} (x : s.Idx → EReal)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf (F := Ideal) .olt (Host.absf (F := Ideal) (φ := .f32) x)
            (broadcastInDim s ![] hb (constant (F := Ideal) ⟨0, ![]⟩ .f32 0x7F800000#32))) init hr hu ix0 = 1#1) :
    Finite x := by
  haveI : Subsingleton (⟨0, ![]⟩ : Shape).Idx := ⟨fun a b => funext fun d => d.elim0⟩
  intro i
  exact real_of_abs_lt_top (x i) (Host.reduce_andi_all _ init hr hu ix0 e i)

-- The precondition is the conjunction of the six arrays' tests.
theorem finite_of_pre [hP : Cert.Pre_finite_inputs.Facts] (x0 : A2 4096 512) (x1 : A2 512 128) (x2 : A1 128) (x3 : A2 128 256) (x4 : A1 128) (x5 : A2 4096 4096)
    (h : Cert.Pre_finite_inputs.fn (F := Ideal) x0 x1 x2 x3 x4 x5 = fun _ => 1#1) :
    Finite x0 ∧ Finite x1 ∧ Finite x2 ∧ Finite x3 ∧ Finite x4 ∧ Finite x5 := by
  have h0 := congrFun h ix0
  dsimp only [Cert.Pre_finite_inputs.fn, Cert.Pre_finite_inputs.fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨finite_of_all x0 _ _ _ _ e0, finite_of_all x1 _ _ _ _ e1, finite_of_all x2 _ _ _ _ e2,
    finite_of_all x3 _ _ _ _ e3, finite_of_all x4 _ _ _ _ e4, finite_of_all x5 _ _ _ _ e5⟩

end Cert.Spec

end
-- ==== Proof.lean ====
import proofs.«145575_j57698590654941_1_alg».proof.Defs
import proofs.«145575_j57698590654941_1_alg».proof.Proof.Gen.Kernel
import proofs.«145575_j57698590654941_1_alg».proof.Proof.Gen.KernelIdeal
import proofs.«145575_j57698590654941_1_alg».proof.Proof.Gen.ReferenceIdeal
import proofs.«145575_j57698590654941_1_alg».proof.Proof.Gen.Pre_finite_inputs
import proofs.«145575_j57698590654941_1_alg».proof.Proof.KSegs
import proofs.«145575_j57698590654941_1_alg».proof.Proof.Segs
import proofs.«145575_j57698590654941_1_alg».proof.Proof.KernelValue
import proofs.«145575_j57698590654941_1_alg».proof.Proof.RefValue
import proofs.«145575_j57698590654941_1_alg».proof.Proof.Algebra
import proofs.«145575_j57698590654941_1_alg».proof.Proof.PreFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame_main (F := Bits) m ρ

theorem frame_ki : Cert.frame_KernelIdeal := fun m ρ _ => Cert.KernelIdeal.Hand.frame_main (F := Ideal) m ρ

-- The reference's frame is its run with the two results dropped.
theorem frame_ri : Cert.frame_ReferenceIdeal := fun m ρ _ =>
  (θ_run Cert.ReferenceIdeal.defs _ _).mono (fun _ h c => (h c).2.2) (Cert.ReferenceIdeal.RefValue.ref_value m ρ)

-- On real arguments both spellings are one function: (A+I)S = AS+S, (AA−I)S = A(AS)−S, a 256-column sum splits in halves, the mean of 2²⁴ entries is 2⁻²⁴ × the tile sums.
theorem algebraic : Cert.algebraic_KernelIdeal_ReferenceIdeal := by
  intro m ρ m' ρ' hpre hagree
  refine ⟨_, _, Cert.KernelIdeal.Hand.run_value m ρ, ?_⟩
  refine (θ_run Cert.ReferenceIdeal.defs _ _).mono (fun _ h c => ?_) (Cert.ReferenceIdeal.RefValue.ref_value m' ρ')
  obtain ⟨h0, h1, h2, h3, h4, h5⟩ := Cert.Spec.finite_of_pre _ _ _ _ _ _ (hpre c)
  refine ⟨(h c).1.trans ?_, (h c).2.1.trans ?_, (h c).2.2⟩
  · rw [(hagree c).1, (hagree c).2.1, (hagree c).2.2.1, (hagree c).2.2.2.1, (hagree c).2.2.2.2.1, (hagree c).2.2.2.2.2]
    exact Cert.Spec.out_eq _ _ _ _ _ _ h0 h1 h2 h3 h4 h5
  · rw [(hagree c).1, (hagree c).2.1, (hagree c).2.2.2.2.2]
    exact Cert.Spec.loss_eq _ _ _ h0 h1 h5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
